-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v69)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v69) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v65) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x512x256 : Shape := ⟨3, ![8, 512, 256]⟩
abbrev S16384 : Shape := ⟨1, ![16384]⟩
abbrev S256x256 : Shape := ⟨2, ![256, 256]⟩
abbrev S256 : Shape := ⟨1, ![256]⟩
abbrev S1024 : Shape := ⟨1, ![1024]⟩
abbrev S_ : Shape := ⟨0, ![]⟩

class Facts : Prop where
  bcast_S_S8x512x256 : S_.BroadcastsInDim S8x512x256 (![] : Fin 0 → Fin S8x512x256.rank)
  reducesTo_S8x512x256_S_d0_1_2 : S8x512x256.ReducesTo [0, 1, 2] S_
  h_S_ : 0 < S_.numel
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_
  bcast_S_S1024 : S_.BroadcastsInDim S1024 (![] : Fin 0 → Fin S1024.rank)
  reducesTo_S1024_S_d0 : S1024.ReducesTo [0] S_
  bcast_S_S16384 : S_.BroadcastsInDim S16384 (![] : Fin 0 → Fin S16384.rank)
  reducesTo_S16384_S_d0 : S16384.ReducesTo [0] S_

variable [Facts]

def fn_part3 {F : FTy → Type} [FloatOps F] (main_arg3 : IVec S16384 32) (main_v49 : IVec S_ 1) : IVec S_ 1 :=
  let main_c_20 : IVec S_ 32 := constantI S_ 32 0#32
  let main_v50 : IVec S16384 32 := broadcastInDim S16384 ![] bcast_S_S16384 main_c_20
  let main_v51 : IVec S16384 1 := cmpi .sge main_arg3 main_v50
  let main_c_21 : IVec S_ 1 := constantI S_ 1 1#1
  let main_v52 : IVec S_ 1 := (fun x v => Host.reduce IntOp.andi x v reducesTo_S16384_S_d0 h_S_) main_v51 main_c_21
  let main_v53 : IVec S_ 1 := andi main_v49 main_v52
  let main_c_22 : IVec S_ 32 := constantI S_ 32 512#32
  let main_v54 : IVec S16384 32 := broadcastInDim S16384 ![] bcast_S_S16384 main_c_22
  let main_v55 : IVec S16384 1 := cmpi .slt main_arg3 main_v54
  let main_c_23 : IVec S_ 1 := constantI S_ 1 1#1
  let main_v56 : IVec S_ 1 := (fun x v => Host.reduce IntOp.andi x v reducesTo_S16384_S_d0 h_S_) main_v55 main_c_23
  let main_v57 : IVec S_ 1 := andi main_v53 main_v56
  main_v57

def fn_part2 {F : FTy → Type} [FloatOps F] (main_arg1 : IVec S16384 32) (main_arg2 : IVec S16384 32) (main_arg3 : IVec S16384 32) (main_v33 : IVec S_ 1) : IVec S_ 1 :=
  let main_c_12 : IVec S_ 32 := constantI S_ 32 0#32
  let main_v34 : IVec S16384 32 := broadcastInDim S16384 ![] bcast_S_S16384 main_c_12
  let main_v35 : IVec S16384 1 := cmpi .sge main_arg1 main_v34
  let main_c_13 : IVec S_ 1 := constantI S_ 1 1#1
  let main_v36 : IVec S_ 1 := (fun x v => Host.reduce IntOp.andi x v reducesTo_S16384_S_d0 h_S_) main_v35 main_c_13
  let main_v37 : IVec S_ 1 := andi main_v33 main_v36
  let main_c_14 : IVec S_ 32 := constantI S_ 32 512#32
  let main_v38 : IVec S16384 32 := broadcastInDim S16384 ![] bcast_S_S16384 main_c_14
  let main_v39 : IVec S16384 1 := cmpi .slt main_arg1 main_v38
  let main_c_15 : IVec S_ 1 := constantI S_ 1 1#1
  let main_v40 : IVec S_ 1 := (fun x v => Host.reduce IntOp.andi x v reducesTo_S16384_S_d0 h_S_) main_v39 main_c_15
  let main_v41 : IVec S_ 1 := andi main_v37 main_v40
  let main_c_16 : IVec S_ 32 := constantI S_ 32 0#32
  let main_v42 : IVec S16384 32 := broadcastInDim S16384 ![] bcast_S_S16384 main_c_16
  let main_v43 : IVec S16384 1 := cmpi .sge main_arg2 main_v42
  let main_c_17 : IVec S_ 1 := constantI S_ 1 1#1
  let main_v44 : IVec S_ 1 := (fun x v => Host.reduce IntOp.andi x v reducesTo_S16384_S_d0 h_S_) main_v43 main_c_17
  let main_v45 : IVec S_ 1 := andi main_v41 main_v44
  let main_c_18 : IVec S_ 32 := constantI S_ 32 512#32
  let main_v46 : IVec S16384 32 := broadcastInDim S16384 ![] bcast_S_S16384 main_c_18
  let main_v47 : IVec S16384 1 := cmpi .slt main_arg2 main_v46
  let main_c_19 : IVec S_ 1 := constantI S_ 1 1#1
  let main_v48 : IVec S_ 1 := (fun x v => Host.reduce IntOp.andi x v reducesTo_S16384_S_d0 h_S_) main_v47 main_c_19
  let main_v49 : IVec S_ 1 := andi main_v45 main_v48
  fn_part3 (F := F) main_arg3 main_v49

def fn_part1 {F : FTy → Type} [FloatOps F] (main_arg1 : IVec S16384 32) (main_arg2 : IVec S16384 32) (main_arg3 : IVec S16384 32) (main_arg7 : FVec F S256 .f32) (main_arg8 : FVec F S1024 .f32) (main_arg9 : FVec F S1024 .f32) (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  let main_v19 : FVec F S256 .f32 := Host.absf main_arg7
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S1024 .f32 := Host.absf main_arg8
  let main_cst_8 : FVec F S_ .f32 := constant S_ .f32 0x7F800000#32
  let main_v25 : FVec F S1024 .f32 := broadcastInDim S1024 ![] bcast_S_S1024 main_cst_8
  let main_v26 : IVec S1024 1 := cmpf .olt main_v24 main_v25
  let main_c_9 : IVec S_ 1 := constantI S_ 1 1#1
  let main_v27 : IVec S_ 1 := (fun x v => Host.reduce IntOp.andi x v reducesTo_S1024_S_d0 h_S_) main_v26 main_c_9
  let main_v28 : IVec S_ 1 := andi main_v23 main_v27
  let main_v29 : FVec F S1024 .f32 := Host.absf main_arg9
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  fn_part2 (F := F) main_arg1 main_arg2 main_arg3 main_v33

def fn {F : FTy → Type} [FloatOps F] (main_arg0 : FVec F S8x512x256 .f32) (main_arg1 : IVec S16384 32) (main_arg2 : IVec S16384 32) (main_arg3 : IVec S16384 32) (main_arg4 : FVec F S256x256 .f32) (main_arg5 : FVec F S256 .f32) (main_arg6 : FVec F S256x256 .f32) (main_arg7 : FVec F S256 .f32) (main_arg8 : FVec F S1024 .f32) (main_arg9 : FVec F S1024 .f32) : IVec S_ 1 :=
  let main_v0 : FVec F S8x512x256 .f32 := Host.absf main_arg0
  let main_cst : FVec F S_ .f32 := constant S_ .f32 0x7F800000#32
  let main_v1 : FVec F S8x512x256 .f32 := broadcastInDim S8x512x256 ![] bcast_S_S8x512x256 main_cst
  let main_v2 : IVec S8x512x256 1 := cmpf .olt main_v0 main_v1
  let main_c : IVec S_ 1 := constantI S_ 1 1#1
  let main_v3 : IVec S_ 1 := (fun x v => Host.reduce IntOp.andi x v reducesTo_S8x512x256_S_d0_1_2 h_S_) main_v2 main_c
  let main_v4 : FVec F S256x256 .f32 := Host.absf main_arg4
  let main_cst_0 : FVec F S_ .f32 := constant S_ .f32 0x7F800000#32
  let main_v5 : FVec F S256x256 .f32 := broadcastInDim S256x256 ![] bcast_S_S256x256 main_cst_0
  let main_v6 : IVec S256x256 1 := cmpf .olt main_v4 main_v5
  let main_c_1 : IVec S_ 1 := constantI S_ 1 1#1
  let main_v7 : IVec S_ 1 := (fun x v => Host.reduce IntOp.andi x v reducesTo_S256x256_S_d0_1 h_S_) main_v6 main_c_1
  let main_v8 : IVec S_ 1 := andi main_v3 main_v7
  let main_v9 : FVec F S256 .f32 := Host.absf main_arg5
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x256 .f32 := Host.absf main_arg6
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_arg1 main_arg2 main_arg3 main_arg7 main_arg8 main_arg9 main_v13 main_v16
-- ==== Kernel.lean ====
abbrev S8x512x256 : Shape := ⟨3, ![8, 512, 256]⟩
abbrev S16384 : Shape := ⟨1, ![16384]⟩
abbrev S256x256 : Shape := ⟨2, ![256, 256]⟩
abbrev S256 : Shape := ⟨1, ![256]⟩
abbrev S1024 : Shape := ⟨1, ![1024]⟩
abbrev S_ : Shape := ⟨0, ![]⟩
abbrev S512x32 : Shape := ⟨2, ![512, 32]⟩
abbrev S512 : Shape := ⟨1, ![512]⟩
abbrev S1x1x512 : Shape := ⟨3, ![1, 1, 512]⟩
abbrev S512x32x1 : Shape := ⟨3, ![512, 32, 1]⟩
abbrev S512x32x512 : Shape := ⟨3, ![512, 32, 512]⟩
abbrev S512x512 : Shape := ⟨2, ![512, 512]⟩
abbrev S1x256 : Shape := ⟨2, ![1, 256]⟩
abbrev S8x512x1024 : Shape := ⟨3, ![8, 512, 1024]⟩
abbrev S2x1x1024 : Shape := ⟨3, ![2, 1, 1024]⟩
abbrev S1x512x256 : Shape := ⟨3, ![1, 512, 256]⟩
abbrev S256x512 : Shape := ⟨2, ![256, 512]⟩
abbrev S1x256x1024 : Shape := ⟨3, ![1, 256, 1024]⟩
abbrev S1x1x1024 : Shape := ⟨3, ![1, 1, 1024]⟩
abbrev S1x1024 : Shape := ⟨2, ![1, 1024]⟩
abbrev S512x256 : Shape := ⟨2, ![512, 256]⟩
abbrev S1x256x256 : Shape := ⟨3, ![1, 256, 256]⟩
abbrev S768x256 : Shape := ⟨2, ![768, 256]⟩
abbrev S256x1024 : Shape := ⟨2, ![256, 1024]⟩
abbrev S256x1 : Shape := ⟨2, ![256, 1]⟩
abbrev S2x1024 : Shape := ⟨2, ![2, 1024]⟩
abbrev S8x64x1024 : Shape := ⟨3, ![8, 64, 1024]⟩

abbrev nBuf : Space → Nat
  | .hbm => 115
  | .vmem => 23
  | .smem => 0
  | _ => 0

abbrev bufTy : (tb : Table) → Fin (tcTables nBuf tb) → BufTy
  | .hbm, ⟨0, _⟩ => ⟨S8x512x256, .f32⟩
  | .hbm, ⟨1, _⟩ => ⟨S16384, .i32⟩
  | .hbm, ⟨2, _⟩ => ⟨S16384, .i32⟩
  | .hbm, ⟨3, _⟩ => ⟨S16384, .i32⟩
  | .hbm, ⟨4, _⟩ => ⟨S256x256, .f32⟩
  | .hbm, ⟨5, _⟩ => ⟨S256, .f32⟩
  | .hbm, ⟨6, _⟩ => ⟨S256x256, .f32⟩
  | .hbm, ⟨7, _⟩ => ⟨S256, .f32⟩
  | .hbm, ⟨8, _⟩ => ⟨S1024, .f32⟩
  | .hbm, ⟨9, _⟩ => ⟨S1024, .f32⟩
  | .hbm, ⟨10, _⟩ => ⟨S_, .i32⟩
  | .hbm, ⟨11, _⟩ => ⟨S_, .i32⟩
  | .hbm, ⟨12, _⟩ => ⟨S_, .i32⟩
  | .hbm, ⟨13, _⟩ => ⟨S16384, .i32⟩
  | .hbm, ⟨14, _⟩ => ⟨S16384, .i32⟩
  | .hbm, ⟨15, _⟩ => ⟨S_, .i32⟩
  | .hbm, ⟨16, _⟩ => ⟨S16384, .i32⟩
  | .hbm, ⟨17, _⟩ => ⟨S16384, .i32⟩
  | .hbm, ⟨18, _⟩ => ⟨S512x32, .i32⟩
  | .hbm, ⟨19, _⟩ => ⟨S512, .i32⟩
  | .hbm, ⟨20, _⟩ => ⟨S1x1x512, .i32⟩
  | .hbm, ⟨21, _⟩ => ⟨S512x32x1, .i32⟩
  | .hbm, ⟨22, _⟩ => ⟨S512x32x512, .i32⟩
  | .hbm, ⟨23, _⟩ => ⟨S512x32x512, .i32⟩
  | .hbm, ⟨24, _⟩ => ⟨S512x32x512, .i1⟩
  | .hbm, ⟨25, _⟩ => ⟨S512x32x512, .i32⟩
  | .hbm, ⟨26, _⟩ => ⟨S_, .i32⟩
  | .hbm, ⟨27, _⟩ => ⟨S512x512, .i32⟩
  | .hbm, ⟨28, _⟩ => ⟨S512x512, .f32⟩
  | .hbm, ⟨29, _⟩ => ⟨S_, .f32⟩
  | .hbm, ⟨30, _⟩ => ⟨S512x512, .f32⟩
  | .hbm, ⟨31, _⟩ => ⟨S512x512, .f32⟩
  | .hbm, ⟨32, _⟩ => ⟨S512x512, .bf16⟩
  | .hbm, ⟨33, _⟩ => ⟨S_, .i32⟩
  | .hbm, ⟨34, _⟩ => ⟨S_, .i32⟩
  | .hbm, ⟨35, _⟩ => ⟨S_, .i32⟩
  | .hbm, ⟨36, _⟩ => ⟨S16384, .i32⟩
  | .hbm, ⟨37, _⟩ => ⟨S16384, .i32⟩
  | .hbm, ⟨38, _⟩ => ⟨S_, .i32⟩
  | .hbm, ⟨39, _⟩ => ⟨S16384, .i32⟩
  | .hbm, ⟨40, _⟩ => ⟨S16384, .i32⟩
  | .hbm, ⟨41, _⟩ => ⟨S512x32, .i32⟩
  | .hbm, ⟨42, _⟩ => ⟨S512, .i32⟩
  | .hbm, ⟨43, _⟩ => ⟨S1x1x512, .i32⟩
  | .hbm, ⟨44, _⟩ => ⟨S512x32x1, .i32⟩
  | .hbm, ⟨45, _⟩ => ⟨S512x32x512, .i32⟩
  | .hbm, ⟨46, _⟩ => ⟨S512x32x512, .i32⟩
  | .hbm, ⟨47, _⟩ => ⟨S512x32x512, .i1⟩
  | .hbm, ⟨48, _⟩ => ⟨S512x32x512, .i32⟩
  | .hbm, ⟨49, _⟩ => ⟨S_, .i32⟩
  | .hbm, ⟨50, _⟩ => ⟨S512x512, .i32⟩
  | .hbm, ⟨51, _⟩ => ⟨S512x512, .f32⟩
  | .hbm, ⟨52, _⟩ => ⟨S_, .f32⟩
  | .hbm, ⟨53, _⟩ => ⟨S512x512, .f32⟩
  | .hbm, ⟨54, _⟩ => ⟨S512x512, .f32⟩
  | .hbm, ⟨55, _⟩ => ⟨S512x512, .bf16⟩
  | .hbm, ⟨56, _⟩ => ⟨S_, .i32⟩
  | .hbm, ⟨57, _⟩ => ⟨S_, .i32⟩
  | .hbm, ⟨58, _⟩ => ⟨S_, .i32⟩
  | .hbm, ⟨59, _⟩ => ⟨S16384, .i32⟩
  | .hbm, ⟨60, _⟩ => ⟨S16384, .i32⟩
  | .hbm, ⟨61, _⟩ => ⟨S_, .i32⟩
  | .hbm, ⟨62, _⟩ => ⟨S16384, .i32⟩
  | .hbm, ⟨63, _⟩ => ⟨S16384, .i32⟩
  | .hbm, ⟨64, _⟩ => ⟨S512x32, .i32⟩
  | .hbm, ⟨65, _⟩ => ⟨S512, .i32⟩
  | .hbm, ⟨66, _⟩ => ⟨S1x1x512, .i32⟩
  | .hbm, ⟨67, _⟩ => ⟨S512x32x1, .i32⟩
  | .hbm, ⟨68, _⟩ => ⟨S512x32x512, .i32⟩
  | .hbm, ⟨69, _⟩ => ⟨S512x32x512, .i32⟩
  | .hbm, ⟨70, _⟩ => ⟨S512x32x512, .i1⟩
  | .hbm, ⟨71, _⟩ => ⟨S512x32x512, .i32⟩
  | .hbm, ⟨72, _⟩ => ⟨S_, .i32⟩
  | .hbm, ⟨73, _⟩ => ⟨S512x512, .i32⟩
  | .hbm, ⟨74, _⟩ => ⟨S512x512, .f32⟩
  | .hbm, ⟨75, _⟩ => ⟨S_, .f32⟩
  | .hbm, ⟨76, _⟩ => ⟨S512x512, .f32⟩
  | .hbm, ⟨77, _⟩ => ⟨S512x512, .f32⟩
  | .hbm, ⟨78, _⟩ => ⟨S512x512, .bf16⟩
  | .hbm, ⟨79, _⟩ => ⟨S256x256, .f32⟩
  | .hbm, ⟨80, _⟩ => ⟨S256x256, .bf16⟩
  | .hbm, ⟨81, _⟩ => ⟨S256x256, .f32⟩
  | .hbm, ⟨82, _⟩ => ⟨S256x256, .bf16⟩
  | .hbm, ⟨83, _⟩ => ⟨S1x256, .f32⟩
  | .hbm, ⟨84, _⟩ => ⟨S1x256, .f32⟩
  | .hbm, ⟨85, _⟩ => ⟨S8x512x1024, .bf16⟩
  | .hbm, ⟨86, _⟩ => ⟨S2x1x1024, .f32⟩
  | .hbm, ⟨87, _⟩ => ⟨S2x1x1024, .f32⟩
  | .hbm, ⟨88, _⟩ => ⟨S2x1024, .f32⟩
  | .hbm, ⟨89, _⟩ => ⟨S_, .f32⟩
  | .hbm, ⟨90, _⟩ => ⟨S1024, .f32⟩
  | .hbm, ⟨91, _⟩ => ⟨S2x1024, .f32⟩
  | .hbm, ⟨92, _⟩ => ⟨S_, .f32⟩
  | .hbm, ⟨93, _⟩ => ⟨S1024, .f32⟩
  | .hbm, ⟨94, _⟩ => ⟨S_, .f32⟩
  | .hbm, ⟨95, _⟩ => ⟨S1024, .f32⟩
  | .hbm, ⟨96, _⟩ => ⟨S1024, .f32⟩
  | .hbm, ⟨97, _⟩ => ⟨S_, .f32⟩
  | .hbm, ⟨98, _⟩ => ⟨S1024, .f32⟩
  | .hbm, ⟨99, _⟩ => ⟨S1024, .f32⟩
  | .hbm, ⟨100, _⟩ => ⟨S1024, .f32⟩
  | .hbm, ⟨101, _⟩ => ⟨S1024, .f32⟩
  | .hbm, ⟨102, _⟩ => ⟨S_, .f32⟩
  | .hbm, ⟨103, _⟩ => ⟨S1024, .f32⟩
  | .hbm, ⟨104, _⟩ => ⟨S1024, .f32⟩
  | .hbm, ⟨105, _⟩ => ⟨S_, .f32⟩
  | .hbm, ⟨106, _⟩ => ⟨S1024, .f32⟩
  | .hbm, ⟨107, _⟩ => ⟨S1024, .f32⟩
  | .hbm, ⟨108, _⟩ => ⟨S1024, .f32⟩
  | .hbm, ⟨109, _⟩ => ⟨S1024, .f32⟩
  | .hbm, ⟨110, _⟩ => ⟨S1024, .f32⟩
  | .hbm, ⟨111, _⟩ => ⟨S1024, .f32⟩
  | .hbm, ⟨112, _⟩ => ⟨S1x1x1024, .f32⟩
  | .hbm, ⟨113, _⟩ => ⟨S1x1x1024, .f32⟩
  | .hbm, ⟨114, _⟩ => ⟨S8x512x1024, .f32⟩
  | .local _ .vmem, ⟨0, _⟩ => ⟨S1x512x256, .f32⟩
  | .local _ .vmem, ⟨1, _⟩ => ⟨S1x512x256, .f32⟩
  | .local _ .vmem, ⟨2, _⟩ => ⟨S256x512, .bf16⟩
  | .local _ .vmem, ⟨3, _⟩ => ⟨S256x512, .bf16⟩
  | .local _ .vmem, ⟨4, _⟩ => ⟨S256x512, .bf16⟩
  | .local _ .vmem, ⟨5, _⟩ => ⟨S256x256, .bf16⟩
  | .local _ .vmem, ⟨6, _⟩ => ⟨S1x256, .f32⟩
  | .local _ .vmem, ⟨7, _⟩ => ⟨S256x256, .bf16⟩
  | .local _ .vmem, ⟨8, _⟩ => ⟨S1x256, .f32⟩
  | .local _ .vmem, ⟨9, _⟩ => ⟨S1x256x1024, .bf16⟩
  | .local _ .vmem, ⟨10, _⟩ => ⟨S1x256x1024, .bf16⟩
  | .local _ .vmem, ⟨11, _⟩ => ⟨S1x1x1024, .f32⟩
  | .local _ .vmem, ⟨12, _⟩ => ⟨S1x1x1024, .f32⟩
  | .local _ .vmem, ⟨13, _⟩ => ⟨S1x1x1024, .f32⟩
  | .local _ .vmem, ⟨14, _⟩ => ⟨S1x1x1024, .f32⟩
  | .local _ .vmem, ⟨15, _⟩ => ⟨S1x1024, .f32⟩
  | .local _ .vmem, ⟨16, _⟩ => ⟨S1x1024, .f32⟩
  | .local _ .vmem, ⟨17, _⟩ => ⟨S8x64x1024, .bf16⟩
  | .local _ .vmem, ⟨18, _⟩ => ⟨S8x64x1024, .bf16⟩
  | .local _ .vmem, ⟨19, _⟩ => ⟨S1x1x1024, .f32⟩
  | .local _ .vmem, ⟨20, _⟩ => ⟨S1x1x1024, .f32⟩
  | .local _ .vmem, ⟨21, _⟩ => ⟨S8x64x1024, .f32⟩
  | .local _ .vmem, ⟨22, _⟩ => ⟨S8x64x1024, .f32⟩
  | _, _ => ⟨S8x512x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_c : Ref sig .tc := ⟨.hbm, 10, rfl⟩
abbrev main_c_0 : Ref sig .tc := ⟨.hbm, 11, rfl⟩
abbrev main_call0_v0 : Ref sig .tc := ⟨.hbm, 12, rfl⟩
abbrev main_call0_v1 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_c_1 : Ref sig .tc := ⟨.hbm, 26, rfl⟩
abbrev main_v9 : Ref sig .tc := ⟨.hbm, 27, rfl⟩
abbrev main_v10 : Ref sig .tc := ⟨.hbm, 28, rfl⟩
abbrev main_cst : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_c_2 : Ref sig .tc := ⟨.hbm, 33, rfl⟩
abbrev main_c_3 : Ref sig .tc := ⟨.hbm, 34, rfl⟩
abbrev main_call1_v0 : Ref sig .tc := ⟨.hbm, 35, rfl⟩
abbrev main_call1_v1 : Ref sig .tc := ⟨.hbm, 36, rfl⟩
abbrev main_call1_v2 : Ref sig .tc := ⟨.hbm, 37, rfl⟩
abbrev main_call1_v3 : Ref sig .tc := ⟨.hbm, 38, rfl⟩
abbrev main_call1_v4 : Ref sig .tc := ⟨.hbm, 39, rfl⟩
abbrev main_v14 : Ref sig .tc := ⟨.hbm, 40, rfl⟩
abbrev main_v15 : Ref sig .tc := ⟨.hbm, 41, rfl⟩
abbrev main_v16 : Ref sig .tc := ⟨.hbm, 42, rfl⟩
abbrev main_v17 : Ref sig .tc := ⟨.hbm, 43, rfl⟩
abbrev main_v18 : Ref sig .tc := ⟨.hbm, 44, rfl⟩
abbrev main_v19 : Ref sig .tc := ⟨.hbm, 45, rfl⟩
abbrev main_v20 : Ref sig .tc := ⟨.hbm, 46, rfl⟩
abbrev main_v21 : Ref sig .tc := ⟨.hbm, 47, rfl⟩
abbrev main_v22 : Ref sig .tc := ⟨.hbm, 48, rfl⟩
abbrev main_c_4 : Ref sig .tc := ⟨.hbm, 49, rfl⟩
abbrev main_v23 : Ref sig .tc := ⟨.hbm, 50, rfl⟩
abbrev main_v24 : Ref sig .tc := ⟨.hbm, 51, rfl⟩
abbrev main_cst_5 : Ref sig .tc := ⟨.hbm, 52, rfl⟩
abbrev main_v25 : Ref sig .tc := ⟨.hbm, 53, rfl⟩
abbrev main_v26 : Ref sig .tc := ⟨.hbm, 54, rfl⟩
abbrev main_v27 : Ref sig .tc := ⟨.hbm, 55, rfl⟩
abbrev main_c_6 : Ref sig .tc := ⟨.hbm, 56, rfl⟩
abbrev main_c_7 : Ref sig .tc := ⟨.hbm, 57, rfl⟩
abbrev main_call2_v0 : Ref sig .tc := ⟨.hbm, 58, rfl⟩
abbrev main_call2_v1 : Ref sig .tc := ⟨.hbm, 59, rfl⟩
abbrev main_call2_v2 : Ref sig .tc := ⟨.hbm, 60, rfl⟩
abbrev main_call2_v3 : Ref sig .tc := ⟨.hbm, 61, rfl⟩
abbrev main_call2_v4 : Ref sig .tc := ⟨.hbm, 62, rfl⟩
abbrev main_v28 : Ref sig .tc := ⟨.hbm, 63, rfl⟩
abbrev main_v29 : Ref sig .tc := ⟨.hbm, 64, rfl⟩
abbrev main_v30 : Ref sig .tc := ⟨.hbm, 65, rfl⟩
abbrev main_v31 : Ref sig .tc := ⟨.hbm, 66, rfl⟩
abbrev main_v32 : Ref sig .tc := ⟨.hbm, 67, rfl⟩
abbrev main_v33 : Ref sig .tc := ⟨.hbm, 68, rfl⟩
abbrev main_v34 : Ref sig .tc := ⟨.hbm, 69, rfl⟩
abbrev main_v35 : Ref sig .tc := ⟨.hbm, 70, rfl⟩
abbrev main_v36 : Ref sig .tc := ⟨.hbm, 71, rfl⟩
abbrev main_c_8 : Ref sig .tc := ⟨.hbm, 72, rfl⟩
abbrev main_v37 : Ref sig .tc := ⟨.hbm, 73, rfl⟩
abbrev main_v38 : Ref sig .tc := ⟨.hbm, 74, rfl⟩
abbrev main_cst_9 : Ref sig .tc := ⟨.hbm, 75, rfl⟩
abbrev main_v39 : Ref sig .tc := ⟨.hbm, 76, rfl⟩
abbrev main_v40 : Ref sig .tc := ⟨.hbm, 77, rfl⟩
abbrev main_v41 : Ref sig .tc := ⟨.hbm, 78, rfl⟩
abbrev main_v42 : Ref sig .tc := ⟨.hbm, 79, rfl⟩
abbrev main_v43 : Ref sig .tc := ⟨.hbm, 80, rfl⟩
abbrev main_v44 : Ref sig .tc := ⟨.hbm, 81, rfl⟩
abbrev main_v45 : Ref sig .tc := ⟨.hbm, 82, rfl⟩
abbrev main_v46 : Ref sig .tc := ⟨.hbm, 83, rfl⟩
abbrev main_v47 : Ref sig .tc := ⟨.hbm, 84, rfl⟩
abbrev main_v48_0 : Ref sig .tc := ⟨.hbm, 85, rfl⟩
abbrev main_v48_1 : Ref sig .tc := ⟨.hbm, 86, rfl⟩
abbrev main_v48_2 : Ref sig .tc := ⟨.hbm, 87, rfl⟩
abbrev main_v49 : Ref sig .tc := ⟨.hbm, 88, rfl⟩
abbrev main_cst_10 : Ref sig .tc := ⟨.hbm, 89, rfl⟩
abbrev main_v50 : Ref sig .tc := ⟨.hbm, 90, rfl⟩
abbrev main_v51 : Ref sig .tc := ⟨.hbm, 91, rfl⟩
abbrev main_cst_11 : Ref sig .tc := ⟨.hbm, 92, rfl⟩
abbrev main_v52 : Ref sig .tc := ⟨.hbm, 93, rfl⟩
abbrev main_cst_12 : Ref sig .tc := ⟨.hbm, 94, rfl⟩
abbrev main_v53 : Ref sig .tc := ⟨.hbm, 95, rfl⟩
abbrev main_v54 : Ref sig .tc := ⟨.hbm, 96, rfl⟩
abbrev main_cst_13 : Ref sig .tc := ⟨.hbm, 97, rfl⟩
abbrev main_v55 : Ref sig .tc := ⟨.hbm, 98, rfl⟩
abbrev main_v56 : Ref sig .tc := ⟨.hbm, 99, rfl⟩
abbrev main_v57 : Ref sig .tc := ⟨.hbm, 100, rfl⟩
abbrev main_v58 : Ref sig .tc := ⟨.hbm, 101, rfl⟩
abbrev main_cst_14 : Ref sig .tc := ⟨.hbm, 102, rfl⟩
abbrev main_v59 : Ref sig .tc := ⟨.hbm, 103, rfl⟩
abbrev main_v60 : Ref sig .tc := ⟨.hbm, 104, rfl⟩
abbrev main_cst_15 : Ref sig .tc := ⟨.hbm, 105, rfl⟩
abbrev main_v61 : Ref sig .tc := ⟨.hbm, 106, rfl⟩
abbrev main_v62 : Ref sig .tc := ⟨.hbm, 107, rfl⟩
abbrev main_v63 : Ref sig .tc := ⟨.hbm, 108, rfl⟩
abbrev main_v64 : Ref sig .tc := ⟨.hbm, 109, rfl⟩
abbrev main_v65 : Ref sig .tc := ⟨.hbm, 110, rfl⟩
abbrev main_v66 : Ref sig .tc := ⟨.hbm, 111, rfl⟩
abbrev main_v67 : Ref sig .tc := ⟨.hbm, 112, rfl⟩
abbrev main_v68 : Ref sig .tc := ⟨.hbm, 113, rfl⟩
abbrev main_v69 : Ref sig .tc := ⟨.hbm, 114, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg8_1 : Ref sig .tc := ⟨.vmem, 10, rfl⟩
abbrev cc0_stg9_0 : Ref sig .tc := ⟨.vmem, 11, rfl⟩
abbrev cc0_stg9_1 : Ref sig .tc := ⟨.vmem, 12, rfl⟩
abbrev cc0_stg10_0 : Ref sig .tc := ⟨.vmem, 13, rfl⟩
abbrev cc0_stg10_1 : Ref sig .tc := ⟨.vmem, 14, rfl⟩
abbrev cc0_scratch0 : Ref sig .tc := ⟨.vmem, 15, rfl⟩
abbrev cc0_scratch1 : Ref sig .tc := ⟨.vmem, 16, rfl⟩
abbrev cc1_stg0_0 : Ref sig .tc := ⟨.vmem, 17, rfl⟩
abbrev cc1_stg0_1 : Ref sig .tc := ⟨.vmem, 18, rfl⟩
abbrev cc1_stg1_0 : Ref sig .tc := ⟨.vmem, 19, rfl⟩
abbrev cc1_stg2_0 : Ref sig .tc := ⟨.vmem, 20, rfl⟩
abbrev cc1_stg3_0 : Ref sig .tc := ⟨.vmem, 21, rfl⟩
abbrev cc1_stg3_1 : Ref sig .tc := ⟨.vmem, 22, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem8_1 : DmaSem sig := 10
abbrev cc0_sem9_0 : DmaSem sig := 11
abbrev cc0_sem9_1 : DmaSem sig := 12
abbrev cc0_sem10_0 : DmaSem sig := 13
abbrev cc0_sem10_1 : DmaSem sig := 14
abbrev cc1_sem0_0 : DmaSem sig := 15
abbrev cc1_sem0_1 : DmaSem sig := 16
abbrev cc1_sem1_0 : DmaSem sig := 17
abbrev cc1_sem2_0 : DmaSem sig := 18
abbrev cc1_sem3_0 : DmaSem sig := 19
abbrev cc1_sem3_1 : DmaSem sig := 20

abbrev nD : Nat := 1
abbrev τ : Topo := Topo.v7x

variable {F : FTy → Type} [FloatOps F]

abbrev grid0 : Pipeline.Grid := ⟨2, ![2, 8], ![false, false]⟩

def k0_mult1 (i : grid0.Coords) : BitVec 32 :=
  let arg0 : BitVec 32 := BitVec.ofNat 32 (i 0).val
  let c256_i32 : BitVec 32 := 256#32
  let v3 : BitVec 32 := Scalar.muli arg0 c256_i32
  v3
def k0_off1 (i : grid0.Coords) : Fin 3 → Nat :=
  let c0_17 : Index := 0#32
  let arg0 : BitVec 32 := BitVec.ofNat 32 (i 0).val
  let c256_i32 : BitVec 32 := 256#32
  let v3 : BitVec 32 := Scalar.muli arg0 c256_i32
  let v4 : BitVec 32 := v3
  let v22 : Index := Scalar.indexCast v4
  let c0_18 : Index := 0#32
  ![0, v22.toNat, 0]
def k0_cond2 (i : grid0.Coords) : BitVec 1 :=
  let arg1 : BitVec 32 := BitVec.ofNat 32 (i 1).val
  let c7_i32 : BitVec 32 := 7#32
  let v72 : BitVec 1 := Scalar.cmpi .eq arg1 c7_i32
  let v73 : BitVec 32 := Scalar.extui v72
  let c0_i32_39 : BitVec 32 := 0#32
  let v74 : BitVec 1 := Scalar.cmpi .ne v73 c0_i32_39
  v74

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S256x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 1 → Memref sig .tc .vmem S256x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 1 → Memref sig .tc .vmem S256x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, false]

abbrev stage0_4 : Fin 1 → Memref sig .tc .vmem S256x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S256x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x256x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x1x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S1x1x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev grid1 : Pipeline.Grid := ⟨1, ![8], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage1_0 : Fin 2 → Memref sig .tc .vmem S8x64x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x1x1024 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x1x1024 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S8x64x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  bcast_S_S16384 : S_.BroadcastsInDim S16384 (![] : Fin 0 → Fin S16384.rank)
  shapeCasts_S16384_S512x32 : S16384.ShapeCasts S512x32
  bcast_S512_S1x1x512_2 : S512.BroadcastsInDim S1x1x512 (![2] : Fin 1 → Fin S1x1x512.rank)
  bcast_S512x32_S512x32x1_0_1 : S512x32.BroadcastsInDim S512x32x1 (![0, 1] : Fin 2 → Fin S512x32x1.rank)
  bcast_S512x32x1_S512x32x512_0_1_2 : S512x32x1.BroadcastsInDim S512x32x512 (![0, 1, 2] : Fin 3 → Fin S512x32x512.rank)
  bcast_S1x1x512_S512x32x512_0_1_2 : S1x1x512.BroadcastsInDim S512x32x512 (![0, 1, 2] : Fin 3 → Fin S512x32x512.rank)
  natLt_1_32 : 1 < 32
  reducesTo_S512x32x512_S512x512_d1 : S512x32x512.ReducesTo [1] S512x512
  h_S_ : 0 < S_.numel
  bcast_S_S512x512 : S_.BroadcastsInDim S512x512 (![] : Fin 0 → Fin S512x512.rank)
  bitsLt_bf16_f32 : FTy.bits .bf16 < FTy.bits .f32
  transposes_S256x256_S256x256_1_0 : S256x256.Transposes [1, 0] S256x256
  shapeCasts_S256_S1x256 : S256.ShapeCasts S1x256
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  inb_S256x512_S256x512_0_0 : ∀ a, (![0, 0] : Fin 2 → Nat) a + S256x512.size a ≤ S256x512.size a
  h_S256x512 : 0 < S256x512.numel
  shapeCasts_S256x512_S256x512 : S256x512.ShapeCasts S256x512
  inb_S1x512x256_S1x512x256_0_0_0 : ∀ a, (![0, 0, 0] : Fin 3 → Nat) a + S1x512x256.size a ≤ S1x512x256.size a
  h_S1x512x256 : 0 < S1x512x256.numel
  shapeCasts_S1x512x256_S512x256 : S1x512x256.ShapeCasts S512x256
  h_S1x256x256 : 0 < S1x256x256.numel
  shapeCasts_S1x256x256_S256x256 : S1x256x256.ShapeCasts S256x256
  broadcasts_S1x256_S256x256 : S1x256.Broadcasts S256x256
  concatenates_S256x256_S256x256_S256x256_S768x256_d0 : Shape.Concatenates [S256x256, S256x256, S256x256] S768x256 0
  broadcasts_S1x256_S768x256 : S1x256.Broadcasts S768x256
  slices_S768x256_o0_0_S256x256 : S768x256.Slices ![0, 0] S256x256
  slices_S768x256_o256_0_S256x256 : S768x256.Slices ![256, 0] S256x256
  slices_S768x256_o512_0_S256x256 : S768x256.Slices ![512, 0] S256x256
  concatenates_S256x256_S256x256_S256x256_S256x256_S256x1024_d1 : Shape.Concatenates [S256x256, S256x256, S256x256, S256x256] S256x1024 1
  reduces_S256x1024_S256 : S256x1024.Reduces [1] S256
  shapeCasts_S256_S256x1 : S256.ShapeCasts S256x1
  broadcasts_S256x1_S256x1024 : S256x1.Broadcasts S256x1024
  inb_S1x256x1024_S1x256x1024_0_0_0 : ∀ a, (![0, 0, 0] : Fin 3 → Nat) a + S1x256x1024.size a ≤ S1x256x1024.size a
  h_S1x256x1024 : 0 < S1x256x1024.numel
  shapeCasts_S1x256x1024_S256x1024 : S1x256x1024.ShapeCasts S256x1024
  shapeCasts_S256x1024_S1x256x1024 : S256x1024.ShapeCasts S1x256x1024
  packedbf16_S1x256x1024_S1x256x1024_0_0_0 : (Rect.unit (s := S1x256x1024) ![0, 0, 0] S1x256x1024.size inb_S1x256x1024_S1x256x1024_0_0_0).PackedRows (EltTy.packing .bf16)
  reduces_S256x1024_S1024 : S256x1024.Reduces [0] S1024
  shapeCasts_S1024_S1x1024 : S1024.ShapeCasts S1x1024
  shapeCasts_S1x1024_S1x1x1024 : S1x1024.ShapeCasts S1x1x1024
  inb_S1x1x1024_S1x1x1024_0_0_0 : ∀ a, (![0, 0, 0] : Fin 3 → Nat) a + S1x1x1024.size a ≤ S1x1x1024.size a
  h_S1x1x1024 : 0 < S1x1x1024.numel
  shapeCasts_S2x1x1024_S2x1024 : S2x1x1024.ShapeCasts S2x1024
  reducesTo_S2x1024_S1024_d0 : S2x1024.ReducesTo [0] S1024
  bcast_S_S1024 : S_.BroadcastsInDim S1024 (![] : Fin 0 → Fin S1024.rank)
  shapeCasts_S1024_S1x1x1024 : S1024.ShapeCasts S1x1x1024
  inb_S8x64x1024_S8x64x1024_0_0_0 : ∀ a, (![0, 0, 0] : Fin 3 → Nat) a + S8x64x1024.size a ≤ S8x64x1024.size a
  h_S8x64x1024 : 0 < S8x64x1024.numel
  shapeCasts_S8x64x1024_S8x64x1024 : S8x64x1024.ShapeCasts S8x64x1024
  shapeCasts_S1x1x1024_S1x1x1024 : S1x1x1024.ShapeCasts S1x1x1024
  broadcasts_S1x1x1024_S8x64x1024 : S1x1x1024.Broadcasts S8x64x1024
  dot_S256x256_S256x256_S256x256_1_0_0_1_n_n_wf : DotDims.WF S256x256 S256x256 S256x256 [1] [0] [0] [1] [] []
  dot_S256x512_S512x256_S256x256_1_0_0_1_n_n_wf : DotDims.WF S256x512 S512x256 S256x256 [1] [0] [0] [1] [] []
  dot_S768x256_S256x256_S768x256_1_0_0_1_n_n_wf : DotDims.WF S768x256 S256x256 S768x256 [1] [0] [0] [1] [] []
  hrank0 : 0 < grid0.rank
  k0_mult1_dvd : ∀ i : grid0.Coords, 256 ∣ (k0_mult1 i).toNat
  k0_off1_inb : ∀ i : grid0.Coords, ∀ a, (k0_off1 i) a + S1x256x256.size a ≤ S1x512x256.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x256.size a ≤ S8x512x256.size a
  hwx0_0 : ∀ i : grid0.Coords, EltTy.bits .f32 = 32 ∨ (Rect.block (s := S8x512x256) S1x512x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x512.size a ≤ S512x512.size a
  hwx0_1 : ∀ i : grid0.Coords, EltTy.bits .bf16 = 32 ∨ (Rect.block (s := S512x512) S256x512.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x512.size a ≤ S512x512.size a
  hwx0_2 : ∀ i : grid0.Coords, EltTy.bits .bf16 = 32 ∨ (Rect.block (s := S512x512) S256x512.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x512.size a ≤ S512x512.size a
  hwx0_3 : ∀ i : grid0.Coords, EltTy.bits .bf16 = 32 ∨ (Rect.block (s := S512x512) S256x512.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256x256.size a ≤ S256x256.size a
  hwx0_4 : ∀ i : grid0.Coords, EltTy.bits .bf16 = 32 ∨ (Rect.block (s := S256x256) S256x256.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x256.size a ≤ S1x256.size a
  hwx0_5 : ∀ i : grid0.Coords, EltTy.bits .f32 = 32 ∨ (Rect.block (s := S1x256) S1x256.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S256x256.size a ≤ S256x256.size a
  hwx0_6 : ∀ i : grid0.Coords, EltTy.bits .bf16 = 32 ∨ (Rect.block (s := S256x256) S256x256.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x256.size a ≤ S1x256.size a
  hwx0_7 : ∀ i : grid0.Coords, EltTy.bits .f32 = 32 ∨ (Rect.block (s := S1x256) S1x256.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1x256x1024.size a ≤ S8x512x1024.size a
  hwx0_8 : ∀ i : grid0.Coords, EltTy.bits .bf16 = 32 ∨ (Rect.block (s := S8x512x1024) S1x256x1024.size (cc0_transform_8 i) (hinb0_8 i)).WholeWords (EltTy.packing .bf16)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S1x1x1024.size a ≤ S2x1x1024.size a
  hwx0_9 : ∀ i : grid0.Coords, EltTy.bits .f32 = 32 ∨ (Rect.block (s := S2x1x1024) S1x1x1024.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S1x1x1024.size a ≤ S2x1x1024.size a
  hwx0_10 : ∀ i : grid0.Coords, EltTy.bits .f32 = 32 ∨ (Rect.block (s := S2x1x1024) S1x1x1024.size (cc0_transform_10 i) (hinb0_10 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8x64x1024.size a ≤ S8x512x1024.size a
  hwx1_0 : ∀ i : grid1.Coords, EltTy.bits .bf16 = 32 ∨ (Rect.block (s := S8x512x1024) S8x64x1024.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x1x1024.size a ≤ S1x1x1024.size a
  hwx1_1 : ∀ i : grid1.Coords, EltTy.bits .f32 = 32 ∨ (Rect.block (s := S1x1x1024) S1x1x1024.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x1x1024.size a ≤ S1x1x1024.size a
  hwx1_2 : ∀ i : grid1.Coords, EltTy.bits .f32 = 32 ∨ (Rect.block (s := S1x1x1024) S1x1x1024.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S8x64x1024.size a ≤ S8x512x1024.size a
  hwx1_3 : ∀ i : grid1.Coords, EltTy.bits .f32 = 32 ∨ (Rect.block (s := S8x512x1024) S8x64x1024.size (cc1_transform_3 i) (hinb1_3 i)).WholeWords (EltTy.packing .f32)

variable [Facts₀]

def dot_S256x256_S256x256_S256x256_1_0_0_1_n_n : DotDims S256x256 S256x256 S256x256 where
  lhsContracting := [1]
  rhsContracting := [0]
  lhsNonContracting := [0]
  rhsNonContracting := [1]
  lhsBatch := []
  rhsBatch := []
  wf := dot_S256x256_S256x256_S256x256_1_0_0_1_n_n_wf
def dot_S256x512_S512x256_S256x256_1_0_0_1_n_n : DotDims S256x512 S512x256 S256x256 where
  lhsContracting := [1]
  rhsContracting := [0]
  lhsNonContracting := [0]
  rhsNonContracting := [1]
  lhsBatch := []
  rhsBatch := []
  wf := dot_S256x512_S512x256_S256x256_1_0_0_1_n_n_wf
def dot_S768x256_S256x256_S768x256_1_0_0_1_n_n : DotDims S768x256 S256x256 S768x256 where
  lhsContracting := [1]
  rhsContracting := [0]
  lhsNonContracting := [0]
  rhsNonContracting := [1]
  lhsBatch := []
  rhsBatch := []
  wf := dot_S768x256_S256x256_S768x256_1_0_0_1_n_n_wf

abbrev win0_0 : Pipeline.Window sig grid0 :=
  Pipeline.Window.ofSpec (Memref.whole main_arg0) S1x512x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S256x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v27) S256x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v41) S256x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v43) S256x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v46) S1x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v45) S256x256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v47) S1x256.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v48_0) S1x256x1024.size cc0_transform_8 reads0_8 true false 2 stage0_8 sem0_8
    hrank0 hreads0_8 hinb0_8 nbuf0_8 (Memref.isWhole_whole _) hwx0_8 hstage0_8

abbrev win0_9 : Pipeline.Window sig grid0 :=
  Pipeline.Window.ofSpec (Memref.whole main_v48_1) S1x1x1024.size cc0_transform_9 reads0_9 true false 2 stage0_9 sem0_9
    hrank0 hreads0_9 hinb0_9 nbuf0_9 (Memref.isWhole_whole _) hwx0_9 hstage0_9

abbrev win0_10 : Pipeline.Window sig grid0 :=
  Pipeline.Window.ofSpec (Memref.whole main_v48_2) S1x1x1024.size cc0_transform_10 reads0_10 true false 2 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

abbrev idle0 : Fin 11 → grid0.Coords → Bool := fun | 0 => fun _ => false | 1 => fun _ => false | 2 => fun _ => false | 3 => fun _ => false | 4 => fun _ => false | 5 => fun _ => false | 6 => fun _ => false | 7 => fun _ => false | 8 => fun _ => false | 9 => fun i => !(k0_cond2 i == 1#1) | 10 => fun i => !(k0_cond2 i == 1#1) | ⟨_ + 11, h⟩ => absurd h (Nat.not_lt.2 (Nat.le_add_left _ _))

abbrev win1_0 : Pipeline.Window sig grid1 :=
  Pipeline.Window.ofSpec (Memref.whole main_v48_0) S8x64x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v67) S1x1x1024.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v68) S1x1x1024.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v69) S8x64x1024.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S8x512x256 : Shape := ⟨3, ![8, 512, 256]⟩
abbrev S16384 : Shape := ⟨1, ![16384]⟩
abbrev S256x256 : Shape := ⟨2, ![256, 256]⟩
abbrev S256 : Shape := ⟨1, ![256]⟩
abbrev S1024 : Shape := ⟨1, ![1024]⟩
abbrev S1x1x256 : Shape := ⟨3, ![1, 1, 256]⟩
abbrev S_ : Shape := ⟨0, ![]⟩
abbrev S16384x1 : Shape := ⟨2, ![16384, 1]⟩
abbrev S1 : Shape := ⟨1, ![1]⟩
abbrev S1x1 : Shape := ⟨2, ![1, 1]⟩
abbrev S8x16384x256 : Shape := ⟨3, ![8, 16384, 256]⟩
abbrev S8x512x32x256 : Shape := ⟨4, ![8, 512, 32, 256]⟩
abbrev S8x512x1024 : Shape := ⟨3, ![8, 512, 1024]⟩
abbrev S8x512 : Shape := ⟨2, ![8, 512]⟩
abbrev S8x512x1 : Shape := ⟨3, ![8, 512, 1]⟩
abbrev S1x1x1024 : Shape := ⟨3, ![1, 1, 1024]⟩

abbrev nBuf : Space → Nat
  | .hbm => 157
  | .vmem => 0
  | .smem => 0
  | _ => 0

abbrev hbmTy0_0 (i : Nat) : BufTy := match i % 128 with
  | 0 => ⟨S8x512x256, .f32⟩
  | 1 => ⟨S16384, .i32⟩
  | 2 => ⟨S16384, .i32⟩
  | 3 => ⟨S16384, .i32⟩
  | 4 => ⟨S256x256, .f32⟩
  | 5 => ⟨S256, .f32⟩
  | 6 => ⟨S256x256, .f32⟩
  | 7 => ⟨S256, .f32⟩
  | 8 => ⟨S1024, .f32⟩
  | 9 => ⟨S1024, .f32⟩
  | 10 => ⟨S8x512x256, .f32⟩
  | 11 => ⟨S1x1x256, .f32⟩
  | 12 => ⟨S8x512x256, .f32⟩
  | 13 => ⟨S8x512x256, .f32⟩
  | 14 => ⟨S_, .i32⟩
  | 15 => ⟨S16384, .i32⟩
  | 16 => ⟨S16384, .i1⟩
  | 17 => ⟨S_, .i32⟩
  | 18 => ⟨S16384, .i32⟩
  | 19 => ⟨S16384, .i32⟩
  | 20 => ⟨S16384, .i32⟩
  | 21 => ⟨S16384x1, .i32⟩
  | 22 => ⟨S1, .i32⟩
  | 23 => ⟨S_, .i32⟩
  | 24 => ⟨S16384x1, .i32⟩
  | 25 => ⟨S16384x1, .i1⟩
  | 26 => ⟨S1x1, .i32⟩
  | 27 => ⟨S16384x1, .i32⟩
  | 28 => ⟨S16384x1, .i1⟩
  | 29 => ⟨S16384x1, .i1⟩
  | 30 => ⟨S_, .i1⟩
  | 31 => ⟨S16384, .i1⟩
  | 32 => ⟨S8x16384x256, .f32⟩
  | 33 => ⟨S8x16384x256, .i1⟩
  | 34 => ⟨S_, .f32⟩
  | 35 => ⟨S8x16384x256, .f32⟩
  | 36 => ⟨S8x16384x256, .f32⟩
  | 37 => ⟨S8x512x32x256, .f32⟩
  | 38 => ⟨S_, .f32⟩
  | 39 => ⟨S8x512x256, .f32⟩
  | 40 => ⟨S_, .f32⟩
  | 41 => ⟨S8x512x256, .f32⟩
  | 42 => ⟨S8x512x256, .f32⟩
  | 43 => ⟨S8x512x256, .f32⟩
  | 44 => ⟨S1x1x256, .f32⟩
  | 45 => ⟨S8x512x256, .f32⟩
  | 46 => ⟨S8x512x256, .f32⟩
  | 47 => ⟨S_, .i32⟩
  | 48 => ⟨S16384, .i32⟩
  | 49 => ⟨S16384, .i1⟩
  | 50 => ⟨S_, .i32⟩
  | 51 => ⟨S16384, .i32⟩
  | 52 => ⟨S16384, .i32⟩
  | 53 => ⟨S16384, .i32⟩
  | 54 => ⟨S16384x1, .i32⟩
  | 55 => ⟨S1, .i32⟩
  | 56 => ⟨S_, .i32⟩
  | 57 => ⟨S16384x1, .i32⟩
  | 58 => ⟨S16384x1, .i1⟩
  | 59 => ⟨S1x1, .i32⟩
  | 60 => ⟨S16384x1, .i32⟩
  | 61 => ⟨S16384x1, .i1⟩
  | 62 => ⟨S16384x1, .i1⟩
  | 63 => ⟨S_, .i1⟩
  | 64 => ⟨S16384, .i1⟩
  | 65 => ⟨S8x16384x256, .f32⟩
  | 66 => ⟨S8x16384x256, .i1⟩
  | 67 => ⟨S_, .f32⟩
  | 68 => ⟨S8x16384x256, .f32⟩
  | 69 => ⟨S8x16384x256, .f32⟩
  | 70 => ⟨S8x512x32x256, .f32⟩
  | 71 => ⟨S_, .f32⟩
  | 72 => ⟨S8x512x256, .f32⟩
  | 73 => ⟨S_, .f32⟩
  | 74 => ⟨S8x512x256, .f32⟩
  | 75 => ⟨S8x512x256, .f32⟩
  | 76 => ⟨S8x512x256, .f32⟩
  | 77 => ⟨S1x1x256, .f32⟩
  | 78 => ⟨S8x512x256, .f32⟩
  | 79 => ⟨S8x512x256, .f32⟩
  | 80 => ⟨S_, .i32⟩
  | 81 => ⟨S16384, .i32⟩
  | 82 => ⟨S16384, .i1⟩
  | 83 => ⟨S_, .i32⟩
  | 84 => ⟨S16384, .i32⟩
  | 85 => ⟨S16384, .i32⟩
  | 86 => ⟨S16384, .i32⟩
  | 87 => ⟨S16384x1, .i32⟩
  | 88 => ⟨S1, .i32⟩
  | 89 => ⟨S_, .i32⟩
  | 90 => ⟨S16384x1, .i32⟩
  | 91 => ⟨S16384x1, .i1⟩
  | 92 => ⟨S1x1, .i32⟩
  | 93 => ⟨S16384x1, .i32⟩
  | 94 => ⟨S16384x1, .i1⟩
  | 95 => ⟨S16384x1, .i1⟩
  | 96 => ⟨S_, .i1⟩
  | 97 => ⟨S16384, .i1⟩
  | 98 => ⟨S8x16384x256, .f32⟩
  | 99 => ⟨S8x16384x256, .i1⟩
  | 100 => ⟨S_, .f32⟩
  | 101 => ⟨S8x16384x256, .f32⟩
  | 102 => ⟨S8x16384x256, .f32⟩
  | 103 => ⟨S8x512x32x256, .f32⟩
  | 104 => ⟨S_, .f32⟩
  | 105 => ⟨S8x512x256, .f32⟩
  | 106 => ⟨S_, .f32⟩
  | 107 => ⟨S8x512x256, .f32⟩
  | 108 => ⟨S8x512x256, .f32⟩
  | 109 => ⟨S8x512x256, .f32⟩
  | 110 => ⟨S1x1x256, .f32⟩
  | 111 => ⟨S8x512x256, .f32⟩
  | 112 => ⟨S8x512x256, .f32⟩
  | 113 => ⟨S8x512x1024, .f32⟩
  | 114 => ⟨S8x512x1024, .f32⟩
  | 115 => ⟨S_, .f32⟩
  | 116 => ⟨S8x512, .f32⟩
  | 117 => ⟨S8x512x1, .f32⟩
  | 118 => ⟨S8x512x1, .f32⟩
  | 119 => ⟨S_, .f32⟩
  | 120 => ⟨S8x512x1, .f32⟩
  | 121 => ⟨S8x512x1, .f32⟩
  | 122 => ⟨S8x512x1024, .f32⟩
  | 123 => ⟨S8x512x1024, .f32⟩
  | 124 => ⟨S_, .f32⟩
  | 125 => ⟨S8x512x1024, .f32⟩
  | 126 => ⟨S8x512x1024, .f32⟩
  | 127 => ⟨S_, .f32⟩
  | _ => ⟨S8x512x256, .f32⟩

abbrev hbmTy0_1 (i : Nat) : BufTy := match i % 128 with
  | 0 => ⟨S1024, .f32⟩
  | 1 => ⟨S_, .f32⟩
  | 2 => ⟨S1024, .f32⟩
  | 3 => ⟨S1024, .f32⟩
  | 4 => ⟨S1x1x1024, .f32⟩
  | 5 => ⟨S8x512x1024, .f32⟩
  | 6 => ⟨S8x512x1024, .f32⟩
  | 7 => ⟨S8x512x1024, .f32⟩
  | 8 => ⟨S_, .f32⟩
  | 9 => ⟨S1024, .f32⟩
  | 10 => ⟨S_, .f32⟩
  | 11 => ⟨S1024, .f32⟩
  | 12 => ⟨S1024, .f32⟩
  | 13 => ⟨S1x1x1024, .f32⟩
  | 14 => ⟨S8x512x1024, .f32⟩
  | 15 => ⟨S8x512x1024, .f32⟩
  | 16 => ⟨S_, .f32⟩
  | 17 => ⟨S1024, .f32⟩
  | 18 => ⟨S1024, .f32⟩
  | 19 => ⟨S1024, .f32⟩
  | 20 => ⟨S1x1x1024, .f32⟩
  | 21 => ⟨S8x512x1024, .f32⟩
  | 22 => ⟨S8x512x1024, .f32⟩
  | 23 => ⟨S1x1x1024, .f32⟩
  | 24 => ⟨S8x512x1024, .f32⟩
  | 25 => ⟨S8x512x1024, .f32⟩
  | 26 => ⟨S1x1x1024, .f32⟩
  | 27 => ⟨S8x512x1024, .f32⟩
  | 28 => ⟨S8x512x1024, .f32⟩
  | _ => ⟨S8x512x256, .f32⟩

abbrev hbmTy (i : Nat) : BufTy := match i / 128 with
  | 0 => hbmTy0_0 i
  | 1 => hbmTy0_1 i
  | _ => ⟨S8x512x256, .f32⟩

abbrev bufTy : (tb : Table) → Fin (tcTables nBuf tb) → BufTy
  | .hbm, ⟨i, _⟩ => hbmTy i
  | _, _ => ⟨S8x512x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_call0_c : Ref sig .tc := ⟨.hbm, 14, rfl⟩
abbrev main_call0_v0 : Ref sig .tc := ⟨.hbm, 15, rfl⟩
abbrev main_call0_v1 : Ref sig .tc := ⟨.hbm, 16, rfl⟩
abbrev main_call0_c_0 : Ref sig .tc := ⟨.hbm, 17, rfl⟩
abbrev main_call0_v2 : Ref sig .tc := ⟨.hbm, 18, rfl⟩
abbrev main_call0_v3 : Ref sig .tc := ⟨.hbm, 19, rfl⟩
abbrev main_call0_v4 : Ref sig .tc := ⟨.hbm, 20, rfl⟩
abbrev main_call0_v5 : Ref sig .tc := ⟨.hbm, 21, rfl⟩
abbrev main_call0_c_1 : Ref sig .tc := ⟨.hbm, 22, rfl⟩
abbrev main_call0_c_2 : Ref sig .tc := ⟨.hbm, 23, rfl⟩
abbrev main_call0_v6 : Ref sig .tc := ⟨.hbm, 24, rfl⟩
abbrev main_call0_v7 : Ref sig .tc := ⟨.hbm, 25, rfl⟩
abbrev main_call0_v8 : Ref sig .tc := ⟨.hbm, 26, rfl⟩
abbrev main_call0_v9 : Ref sig .tc := ⟨.hbm, 27, rfl⟩
abbrev main_call0_v10 : Ref sig .tc := ⟨.hbm, 28, rfl⟩
abbrev main_call0_v11 : Ref sig .tc := ⟨.hbm, 29, rfl⟩
abbrev main_call0_c_3 : Ref sig .tc := ⟨.hbm, 30, rfl⟩
abbrev main_call0_v12 : Ref sig .tc := ⟨.hbm, 31, rfl⟩
abbrev main_call0_v13 : Ref sig .tc := ⟨.hbm, 32, rfl⟩
abbrev main_call0_v14 : Ref sig .tc := ⟨.hbm, 33, rfl⟩
abbrev main_call0_cst : Ref sig .tc := ⟨.hbm, 34, rfl⟩
abbrev main_call0_v15 : Ref sig .tc := ⟨.hbm, 35, rfl⟩
abbrev main_v4 : Ref sig .tc := ⟨.hbm, 36, rfl⟩
abbrev main_v5 : Ref sig .tc := ⟨.hbm, 37, rfl⟩
abbrev main_cst : Ref sig .tc := ⟨.hbm, 38, rfl⟩
abbrev main_v6 : Ref sig .tc := ⟨.hbm, 39, rfl⟩
abbrev main_cst_0 : Ref sig .tc := ⟨.hbm, 40, rfl⟩
abbrev main_v7 : Ref sig .tc := ⟨.hbm, 41, rfl⟩
abbrev main_v8 : Ref sig .tc := ⟨.hbm, 42, rfl⟩
abbrev main_v9 : Ref sig .tc := ⟨.hbm, 43, rfl⟩
abbrev main_v10 : Ref sig .tc := ⟨.hbm, 44, rfl⟩
abbrev main_v11 : Ref sig .tc := ⟨.hbm, 45, rfl⟩
abbrev main_v12 : Ref sig .tc := ⟨.hbm, 46, rfl⟩
abbrev main_call1_c : Ref sig .tc := ⟨.hbm, 47, rfl⟩
abbrev main_call1_v0 : Ref sig .tc := ⟨.hbm, 48, rfl⟩
abbrev main_call1_v1 : Ref sig .tc := ⟨.hbm, 49, rfl⟩
abbrev main_call1_c_0 : Ref sig .tc := ⟨.hbm, 50, rfl⟩
abbrev main_call1_v2 : Ref sig .tc := ⟨.hbm, 51, rfl⟩
abbrev main_call1_v3 : Ref sig .tc := ⟨.hbm, 52, rfl⟩
abbrev main_call1_v4 : Ref sig .tc := ⟨.hbm, 53, rfl⟩
abbrev main_call1_v5 : Ref sig .tc := ⟨.hbm, 54, rfl⟩
abbrev main_call1_c_1 : Ref sig .tc := ⟨.hbm, 55, rfl⟩
abbrev main_call1_c_2 : Ref sig .tc := ⟨.hbm, 56, rfl⟩
abbrev main_call1_v6 : Ref sig .tc := ⟨.hbm, 57, rfl⟩
abbrev main_call1_v7 : Ref sig .tc := ⟨.hbm, 58, rfl⟩
abbrev main_call1_v8 : Ref sig .tc := ⟨.hbm, 59, rfl⟩
abbrev main_call1_v9 : Ref sig .tc := ⟨.hbm, 60, rfl⟩
abbrev main_call1_v10 : Ref sig .tc := ⟨.hbm, 61, rfl⟩
abbrev main_call1_v11 : Ref sig .tc := ⟨.hbm, 62, rfl⟩
abbrev main_call1_c_3 : Ref sig .tc := ⟨.hbm, 63, rfl⟩
abbrev main_call1_v12 : Ref sig .tc := ⟨.hbm, 64, rfl⟩
abbrev main_call1_v13 : Ref sig .tc := ⟨.hbm, 65, rfl⟩
abbrev main_call1_v14 : Ref sig .tc := ⟨.hbm, 66, rfl⟩
abbrev main_call1_cst : Ref sig .tc := ⟨.hbm, 67, rfl⟩
abbrev main_call1_v15 : Ref sig .tc := ⟨.hbm, 68, rfl⟩
abbrev main_v13 : Ref sig .tc := ⟨.hbm, 69, rfl⟩
abbrev main_v14 : Ref sig .tc := ⟨.hbm, 70, rfl⟩
abbrev main_cst_1 : Ref sig .tc := ⟨.hbm, 71, rfl⟩
abbrev main_v15 : Ref sig .tc := ⟨.hbm, 72, rfl⟩
abbrev main_cst_2 : Ref sig .tc := ⟨.hbm, 73, rfl⟩
abbrev main_v16 : Ref sig .tc := ⟨.hbm, 74, rfl⟩
abbrev main_v17 : Ref sig .tc := ⟨.hbm, 75, rfl⟩
abbrev main_v18 : Ref sig .tc := ⟨.hbm, 76, rfl⟩
abbrev main_v19 : Ref sig .tc := ⟨.hbm, 77, rfl⟩
abbrev main_v20 : Ref sig .tc := ⟨.hbm, 78, rfl⟩
abbrev main_v21 : Ref sig .tc := ⟨.hbm, 79, rfl⟩
abbrev main_call2_c : Ref sig .tc := ⟨.hbm, 80, rfl⟩
abbrev main_call2_v0 : Ref sig .tc := ⟨.hbm, 81, rfl⟩
abbrev main_call2_v1 : Ref sig .tc := ⟨.hbm, 82, rfl⟩
abbrev main_call2_c_0 : Ref sig .tc := ⟨.hbm, 83, rfl⟩
abbrev main_call2_v2 : Ref sig .tc := ⟨.hbm, 84, rfl⟩
abbrev main_call2_v3 : Ref sig .tc := ⟨.hbm, 85, rfl⟩
abbrev main_call2_v4 : Ref sig .tc := ⟨.hbm, 86, rfl⟩
abbrev main_call2_v5 : Ref sig .tc := ⟨.hbm, 87, rfl⟩
abbrev main_call2_c_1 : Ref sig .tc := ⟨.hbm, 88, rfl⟩
abbrev main_call2_c_2 : Ref sig .tc := ⟨.hbm, 89, rfl⟩
abbrev main_call2_v6 : Ref sig .tc := ⟨.hbm, 90, rfl⟩
abbrev main_call2_v7 : Ref sig .tc := ⟨.hbm, 91, rfl⟩
abbrev main_call2_v8 : Ref sig .tc := ⟨.hbm, 92, rfl⟩
abbrev main_call2_v9 : Ref sig .tc := ⟨.hbm, 93, rfl⟩
abbrev main_call2_v10 : Ref sig .tc := ⟨.hbm, 94, rfl⟩
abbrev main_call2_v11 : Ref sig .tc := ⟨.hbm, 95, rfl⟩
abbrev main_call2_c_3 : Ref sig .tc := ⟨.hbm, 96, rfl⟩
abbrev main_call2_v12 : Ref sig .tc := ⟨.hbm, 97, rfl⟩
abbrev main_call2_v13 : Ref sig .tc := ⟨.hbm, 98, rfl⟩
abbrev main_call2_v14 : Ref sig .tc := ⟨.hbm, 99, rfl⟩
abbrev main_call2_cst : Ref sig .tc := ⟨.hbm, 100, rfl⟩
abbrev main_call2_v15 : Ref sig .tc := ⟨.hbm, 101, rfl⟩
abbrev main_v22 : Ref sig .tc := ⟨.hbm, 102, rfl⟩
abbrev main_v23 : Ref sig .tc := ⟨.hbm, 103, rfl⟩
abbrev main_cst_3 : Ref sig .tc := ⟨.hbm, 104, rfl⟩
abbrev main_v24 : Ref sig .tc := ⟨.hbm, 105, rfl⟩
abbrev main_cst_4 : Ref sig .tc := ⟨.hbm, 106, rfl⟩
abbrev main_v25 : Ref sig .tc := ⟨.hbm, 107, rfl⟩
abbrev main_v26 : Ref sig .tc := ⟨.hbm, 108, rfl⟩
abbrev main_v27 : Ref sig .tc := ⟨.hbm, 109, rfl⟩
abbrev main_v28 : Ref sig .tc := ⟨.hbm, 110, rfl⟩
abbrev main_v29 : Ref sig .tc := ⟨.hbm, 111, rfl⟩
abbrev main_v30 : Ref sig .tc := ⟨.hbm, 112, rfl⟩
abbrev main_v31 : Ref sig .tc := ⟨.hbm, 113, rfl⟩
abbrev main_v32 : Ref sig .tc := ⟨.hbm, 114, rfl⟩
abbrev main_cst_5 : Ref sig .tc := ⟨.hbm, 115, rfl⟩
abbrev main_v33 : Ref sig .tc := ⟨.hbm, 116, rfl⟩
abbrev main_v34 : Ref sig .tc := ⟨.hbm, 117, rfl⟩
abbrev main_v35 : Ref sig .tc := ⟨.hbm, 118, rfl⟩
abbrev main_cst_6 : Ref sig .tc := ⟨.hbm, 119, rfl⟩
abbrev main_v36 : Ref sig .tc := ⟨.hbm, 120, rfl⟩
abbrev main_v37 : Ref sig .tc := ⟨.hbm, 121, rfl⟩
abbrev main_v38 : Ref sig .tc := ⟨.hbm, 122, rfl⟩
abbrev main_v39 : Ref sig .tc := ⟨.hbm, 123, rfl⟩
abbrev main_call3_cst : Ref sig .tc := ⟨.hbm, 124, rfl⟩
abbrev main_call3_v0 : Ref sig .tc := ⟨.hbm, 125, rfl⟩
abbrev main_v40 : Ref sig .tc := ⟨.hbm, 126, rfl⟩
abbrev main_cst_7 : Ref sig .tc := ⟨.hbm, 127, rfl⟩
abbrev main_v41 : Ref sig .tc := ⟨.hbm, 128, rfl⟩
abbrev main_cst_8 : Ref sig .tc := ⟨.hbm, 129, rfl⟩
abbrev main_v42 : Ref sig .tc := ⟨.hbm, 130, rfl⟩
abbrev main_v43 : Ref sig .tc := ⟨.hbm, 131, rfl⟩
abbrev main_v44 : Ref sig .tc := ⟨.hbm, 132, rfl⟩
abbrev main_v45 : Ref sig .tc := ⟨.hbm, 133, rfl⟩
abbrev main_v46 : Ref sig .tc := ⟨.hbm, 134, rfl⟩
abbrev main_v47 : Ref sig .tc := ⟨.hbm, 135, rfl⟩
abbrev main_cst_9 : Ref sig .tc := ⟨.hbm, 136, rfl⟩
abbrev main_v48 : Ref sig .tc := ⟨.hbm, 137, rfl⟩
abbrev main_cst_10 : Ref sig .tc := ⟨.hbm, 138, rfl⟩
abbrev main_v49 : Ref sig .tc := ⟨.hbm, 139, rfl⟩
abbrev main_v50 : Ref sig .tc := ⟨.hbm, 140, rfl⟩
abbrev main_v51 : Ref sig .tc := ⟨.hbm, 141, rfl⟩
abbrev main_v52 : Ref sig .tc := ⟨.hbm, 142, rfl⟩
abbrev main_v53 : Ref sig .tc := ⟨.hbm, 143, rfl⟩
abbrev main_cst_11 : Ref sig .tc := ⟨.hbm, 144, rfl⟩
abbrev main_v54 : Ref sig .tc := ⟨.hbm, 145, rfl⟩
abbrev main_v55 : Ref sig .tc := ⟨.hbm, 146, rfl⟩
abbrev main_v56 : Ref sig .tc := ⟨.hbm, 147, rfl⟩
abbrev main_v57 : Ref sig .tc := ⟨.hbm, 148, rfl⟩
abbrev main_v58 : Ref sig .tc := ⟨.hbm, 149, rfl⟩
abbrev main_v59 : Ref sig .tc := ⟨.hbm, 150, rfl⟩
abbrev main_v60 : Ref sig .tc := ⟨.hbm, 151, rfl⟩
abbrev main_v61 : Ref sig .tc := ⟨.hbm, 152, rfl⟩
abbrev main_v62 : Ref sig .tc := ⟨.hbm, 153, rfl⟩
abbrev main_v63 : Ref sig .tc := ⟨.hbm, 154, rfl⟩
abbrev main_v64 : Ref sig .tc := ⟨.hbm, 155, rfl⟩
abbrev main_v65 : Ref sig .tc := ⟨.hbm, 156, rfl⟩

abbrev nD : Nat := 1
abbrev τ : Topo := Topo.v7x

variable {F : FTy → Type} [FloatOps F]

class Facts₀ : Prop where
  bcast_S256_S1x1x256_2 : S256.BroadcastsInDim S1x1x256 (![2] : Fin 1 → Fin S1x1x256.rank)
  bcast_S1x1x256_S8x512x256_0_1_2 : S1x1x256.BroadcastsInDim S8x512x256 (![0, 1, 2] : Fin 3 → Fin S8x512x256.rank)
  bcast_S_S16384 : S_.BroadcastsInDim S16384 (![] : Fin 0 → Fin S16384.rank)
  bcast_S16384_S16384x1_0 : S16384.BroadcastsInDim S16384x1 (![0] : Fin 1 → Fin S16384x1.rank)
  bcast_S_S16384x1 : S_.BroadcastsInDim S16384x1 (![] : Fin 0 → Fin S16384x1.rank)
  bcast_S1_S1x1_1 : S1.BroadcastsInDim S1x1 (![1] : Fin 1 → Fin S1x1.rank)
  bcast_S1x1_S16384x1_0_1 : S1x1.BroadcastsInDim S16384x1 (![0, 1] : Fin 2 → Fin S16384x1.rank)
  reducesTo_S16384x1_S16384_d1 : S16384x1.ReducesTo [1] S16384
  h_S_ : 0 < S_.numel
  bcast_S16384_S8x16384x256_1 : S16384.BroadcastsInDim S8x16384x256 (![1] : Fin 1 → Fin S8x16384x256.rank)
  bcast_S_S8x16384x256 : S_.BroadcastsInDim S8x16384x256 (![] : Fin 0 → Fin S8x16384x256.rank)
  shapeCasts_S8x16384x256_S8x512x32x256 : S8x16384x256.ShapeCasts S8x512x32x256
  reducesTo_S8x512x32x256_S8x512x256_d2 : S8x512x32x256.ReducesTo [2] S8x512x256
  bcast_S_S8x512x256 : S_.BroadcastsInDim S8x512x256 (![] : Fin 0 → Fin S8x512x256.rank)
  concatenates_S8x512x256_S8x512x256_S8x512x256_S8x512x256_S8x512x1024_d2 : Shape.Concatenates [S8x512x256, S8x512x256, S8x512x256, S8x512x256] S8x512x1024 2
  reducesTo_S8x512x1024_S8x512_d2 : S8x512x1024.ReducesTo [2] S8x512
  bcast_S8x512_S8x512x1_0_1 : S8x512.BroadcastsInDim S8x512x1 (![0, 1] : Fin 2 → Fin S8x512x1.rank)
  bcast_S_S8x512x1 : S_.BroadcastsInDim S8x512x1 (![] : Fin 0 → Fin S8x512x1.rank)
  bcast_S8x512x1_S8x512x1024_0_1_2 : S8x512x1.BroadcastsInDim S8x512x1024 (![0, 1, 2] : Fin 3 → Fin S8x512x1024.rank)
  bcast_S_S8x512x1024 : S_.BroadcastsInDim S8x512x1024 (![] : Fin 0 → Fin S8x512x1024.rank)
  reducesTo_S8x512x1024_S1024_d0_1 : S8x512x1024.ReducesTo [0, 1] S1024
  bcast_S_S1024 : S_.BroadcastsInDim S1024 (![] : Fin 0 → Fin S1024.rank)
  bcast_S1024_S1x1x1024_2 : S1024.BroadcastsInDim S1x1x1024 (![2] : Fin 1 → Fin S1x1x1024.rank)
  bcast_S1x1x1024_S8x512x1024_0_1_2 : S1x1x1024.BroadcastsInDim S8x512x1024 (![0, 1, 2] : Fin 3 → Fin S8x512x1024.rank)
  dot_S8x512x256_S256x256_S8x512x256_2_1_01_0_n_n_wf : DotDims.WF S8x512x256 S256x256 S8x512x256 [2] [1] [0, 1] [0] [] []
  gather_S8x512x256_S16384x1_S8x16384x256_02_1_n_n_1_1_81256_wf : GatherDims.WF S8x512x256 S16384x1 S8x16384x256 [0, 2] [1] [] [1] [] 1 ![8, 1, 256]

variable [Facts₀]

def dot_S8x512x256_S256x256_S8x512x256_2_1_01_0_n_n : DotDims S8x512x256 S256x256 S8x512x256 where
  lhsContracting := [2]
  rhsContracting := [1]
  lhsNonContracting := [0, 1]
  rhsNonContracting := [0]
  lhsBatch := []
  rhsBatch := []
  wf := dot_S8x512x256_S256x256_S8x512x256_2_1_01_0_n_n_wf
def gather_S8x512x256_S16384x1_S8x16384x256_02_1_n_n_1_1_81256 : GatherDims S8x512x256 S16384x1 S8x16384x256 where
  offsetDims := [0, 2]
  collapsedSliceDims := [1]
  operandBatchingDims := []
  startIndicesBatchingDims := []
  startIndexMap := [1]
  indexVectorDim := 1
  sliceSizes := ![8, 1, 256]
  wf := gather_S8x512x256_S16384x1_S8x16384x256_02_1_n_n_1_1_81256_wf

class Facts : Prop extends Facts₀ where

variable [Facts]
-- ==== Proof.KDefs.lean ====
import proofs.«402726_j40862318854444_3_alg».proof.Proof.Gen.KernelIdeal.Skeleton
import Idealize.ShloMosaic.Lib.Pipeline.FrameBody

noncomputable section

namespace Cert.KernelIdeal.Fr

open Idealize.ShloMosaic Idealize.SL.Sem
open Cert.KernelIdeal Cert.KernelIdeal.Gen

variable {F : FTy → Type} [FloatOps F]

def selfRows (i : grid0.Coords) (x0 : Vec F S1x512x256 .f32) : Vec F S1x256x256 .f32 :=
  View.ld x0 (Rect.unit (s := S1x512x256) (k0_off1 i) S1x256x256.size (k0_off1_inb i))

section
variable (i : grid0.Coords) (x0 : Vec F S1x512x256 .f32) (a1 a2 a3 : Vec F S256x512 .bf16)
  (w4 : Vec F S256x256 .bf16) (b5 : Vec F S1x256 .f32) (w6 : Vec F S256x256 .bf16) (b7 : Vec F S1x256 .f32)

def rows : FVec F S256x1024 .f32 :=
  k0_pay12 (k0_pay5 w6) (k0_pay6 b7) (k0_pay7 a3) (k0_pay8 x0) (k0_pay9 w4 b5 (selfRows i x0)) (k0_pay10 a1 x0) (k0_pay11 a2 x0)

def outRows : FVec F S1x256x1024 .bf16 :=
  k0_pay13 (k0_pay5 w6) (k0_pay6 b7) (k0_pay7 a3) (k0_pay8 x0) (k0_pay9 w4 b5 (selfRows i x0)) (k0_pay10 a1 x0) (k0_pay11 a2 x0)

def accSum (s : Vec F S1x1024 .f32) : FVec F S1x1024 .f32 :=
  k0_pay14 (k0_pay5 w6) (k0_pay6 b7) (k0_pay7 a3) (k0_pay8 x0) (k0_pay9 w4 b5 (selfRows i x0)) (k0_pay10 a1 x0) (k0_pay11 a2 x0) s

def accSq (q : Vec F S1x1024 .f32) : FVec F S1x1024 .f32 :=
  k0_pay15 (k0_pay5 w6) (k0_pay6 b7) (k0_pay7 a3) (k0_pay8 x0) (k0_pay9 w4 b5 (selfRows i x0)) (k0_pay10 a1 x0) (k0_pay11 a2 x0) q
end

def accZero : FVec F S1x1024 .f32 := k0_pay3
def accZero' : FVec F S1x1024 .f32 := k0_pay4

def outAcc (s : Vec F S1x1024 .f32) : FVec F S1x1x1024 .f32 := k0_pay1 s
def outAcc' (q : Vec F S1x1024 .f32) : FVec F S1x1x1024 .f32 := k0_pay2 q

def outAffine (h : Vec F S8x64x1024 .bf16) (sc sh : Vec F S1x1x1024 .f32) : FVec F S8x64x1024 .f32 := k1_pay1 h sc sh

end Cert.KernelIdeal.Fr

end
-- ==== Proof.KDat.lean ====
import proofs.«402726_j40862318854444_3_alg».proof.Proof.KDefs
import proofs.«402726_j40862318854444_3_alg».proof.Proof.Gen.KernelIdeal.Launch
import proofs.«402726_j40862318854444_3_alg».proof.Proof.Gen.KernelIdeal.Points
import Idealize.ShloMosaic.Lib.Pipeline.FrameBody
import Idealize.ShloMosaic.Lib.Pipeline.Frame

noncomputable section

namespace Cert.KernelIdeal.Fr

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev bx0 (c : Dev nD) (t : Fin cfg0.N) : Vec F S1x512x256 .f32 := iblk0 V c 0 t
abbrev ba1 (c : Dev nD) (t : Fin cfg0.N) : Vec F S256x512 .bf16 := iblk0 V c 1 t
abbrev ba2 (c : Dev nD) (t : Fin cfg0.N) : Vec F S256x512 .bf16 := iblk0 V c 2 t
abbrev ba3 (c : Dev nD) (t : Fin cfg0.N) : Vec F S256x512 .bf16 := iblk0 V c 3 t
abbrev bw4 (c : Dev nD) (t : Fin cfg0.N) : Vec F S256x256 .bf16 := iblk0 V c 4 t
abbrev bb5 (c : Dev nD) (t : Fin cfg0.N) : Vec F S1x256 .f32 := iblk0 V c 5 t
abbrev bw6 (c : Dev nD) (t : Fin cfg0.N) : Vec F S256x256 .bf16 := iblk0 V c 6 t
abbrev bb7 (c : Dev nD) (t : Fin cfg0.N) : Vec F S1x256 .f32 := iblk0 V c 7 t

def rowsAt (c : Dev nD) (t : Fin cfg0.N) : FVec F S256x1024 .f32 :=
  rows (grid0.coords t) (bx0 V c t) (ba1 V c t) (ba2 V c t) (ba3 V c t) (bw4 V c t) (bb5 V c t) (bw6 V c t) (bb7 V c t)

def outRowsAt (c : Dev nD) (t : Fin cfg0.N) : FVec F S1x256x1024 .bf16 :=
  outRows (grid0.coords t) (bx0 V c t) (ba1 V c t) (ba2 V c t) (ba3 V c t) (bw4 V c t) (bb5 V c t) (bw6 V c t) (bb7 V c t)

def accStep (c : Dev nD) (t : Fin cfg0.N) (sq : Vec F S1x1024 .f32 × Vec F S1x1024 .f32) : Vec F S1x1024 .f32 × Vec F S1x1024 .f32 :=
  (accSum (grid0.coords t) (bx0 V c t) (ba1 V c t) (ba2 V c t) (ba3 V c t) (bw4 V c t) (bb5 V c t) (bw6 V c t) (bb7 V c t) sq.1,
   accSq (grid0.coords t) (bx0 V c t) (ba1 V c t) (ba2 V c t) (ba3 V c t) (bw4 V c t) (bb5 V c t) (bw6 V c t) (bb7 V c t) sq.2)

def accAt (c : Dev nD) : (n : ℕ) → n < cfg0.N → Vec F S1x1024 .f32 × Vec F S1x1024 .f32
  | 0, h => accStep V c ⟨0, h⟩ (accZero, accZero')
  | n + 1, h => accStep V c ⟨n + 1, h⟩ (if (n + 1) % 8 = 0 then (accZero, accZero') else accAt c n (Nat.lt_of_succ_lt h))

theorem accAt_first (c : Dev nD) (n : ℕ) (h : n < cfg0.N) (h8 : n % 8 = 0) : accAt V c n h = accStep V c ⟨n, h⟩ (accZero, accZero') := by
  cases n with
  | zero => rfl
  | succ n => rw [accAt, if_pos h8]
theorem accAt_next (c : Dev nD) (n : ℕ) (h : n < cfg0.N) (h8 : n % 8 ≠ 0) :
    accAt V c n h = accStep V c ⟨n, h⟩ (accAt V c (n - 1) (by omega)) := by
  cases n with
  | zero => exact absurd rfl h8
  | succ n => rw [accAt, if_neg h8]; rfl

abbrev scS : Memref sig .tc .vmem S1x1024 .f32 := Memref.whole cc0_scratch0
abbrev scQ : Memref sig .tc .vmem S1x1024 .f32 := Memref.whole cc0_scratch1

def rest0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f))

theorem PhiA0_eq (c : Dev nD) :
    (Pipeline.ΦA spec0 c : sProp 𝕄)
      = iprop(((∃ d, owns (c : Thread nD τ) scS fullShare d) ∗ (∃ d, owns (c : Thread nD τ) scQ fullShare d) ∗ rest0 (F := F) c) ∗ (∃ r, prngReg c r)) := by
  unfold Pipeline.ΦA rest0; rw [scopedRest0_eq]; simp only [scS, scQ, owns_whole]; rfl

def PhiS (c : Dev nD) : (n : ℕ) → n ≤ cfg0.N → sProp 𝕄
  | 0, _ => Pipeline.ΦA spec0 c
  | n + 1, hn => iprop((owns (c : Thread nD τ) scS fullShare (accAt V c n hn).1 ∗ owns (c : Thread nD τ) scQ fullShare (accAt V c n hn).2 ∗ rest0 (F := F) c) ∗ (∃ r, prngReg c r))

theorem PhiS_succ (c : Dev nD) (n : ℕ) (hn : n < cfg0.N) :
    PhiS V c (n + 1) hn = iprop((owns (c : Thread nD τ) scS fullShare (accAt V c n hn).1 ∗ owns (c : Thread nD τ) scQ fullShare (accAt V c n hn).2 ∗ rest0 (F := F) c) ∗ (∃ r, prngReg c r)) := rfl
theorem PhiS_pos (c : Dev nD) (n : ℕ) (h : n ≤ cfg0.N) (hz : n ≠ 0) :
    PhiS V c n h = iprop((owns (c : Thread nD τ) scS fullShare (accAt V c (n - 1) (by omega)).1 ∗ owns (c : Thread nD τ) scQ fullShare (accAt V c (n - 1) (by omega)).2 ∗ rest0 (F := F) c) ∗ (∃ r, prngReg c r)) := by
  cases n with
  | zero => exact absurd rfl hz
  | succ n => rfl

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => iblk0 V c 7 t
    | ⟨8, _⟩ => outRowsAt V c t
    | ⟨9, _⟩ => outAcc (accAt V c t.val t.isLt).1
    | ⟨10, _⟩ => outAcc' (accAt V c t.val t.isLt).2
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = iblk0 V c 7 t := by dsimp only [dat0]
theorem after0_8 (c : Dev nD) (t : Fin cfg0.N) : (dat0 V c).after 8 t = outRowsAt V c t := by dsimp only [dat0]
theorem after0_9 (c : Dev nD) (t : Fin cfg0.N) : (dat0 V c).after 9 t = outAcc (accAt V c t.val t.isLt).1 := by dsimp only [dat0]
theorem after0_10 (c : Dev nD) (t : Fin cfg0.N) : (dat0 V c).after 10 t = outAcc' (accAt V c t.val t.isLt).2 := by dsimp only [dat0]

theorem PhiS_castSucc (c : Dev nD) (t : Fin cfg0.N) :
    (dat0 V c).Φ t.castSucc = PhiS V c t.val (Nat.le_of_lt t.isLt) := by
  dsimp only [dat0]; simp only [Fin.coe_castSucc]

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => outAffine (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = outAffine (iblk1 V c 0 t) (iblk1 V c 1 t) (iblk1 V c 2 t) := by dsimp only [dat1]

end Cert.KernelIdeal.Fr

end
-- ==== Proof.KFold.lean ====
import proofs.«402726_j40862318854444_3_alg».proof.Proof.KDat
import Idealize.ShloMosaic.Lib.Pipeline.FrameSuffix
import Idealize.ShloMosaic.Lib.StableHlo.Run

noncomputable section

namespace Cert.KernelIdeal.Fr

open Idealize.ShloMosaic Idealize.ShloMosaic.TcCoe
open Idealize.SL Idealize.SL.Sem
open Idealize.ShloMosaic.Pipeline (Dat)
open Cert.KernelIdeal Cert.KernelIdeal.Gen

variable {F : FTy → Type} [FloatOps F]

variable (m : (ℓ : Loc nD τ sig) → Buf (Elt F) ℓ)

abbrev W0 : Dev nD → Valuation τ sig (Elt F) := fun c b => m (c, b)

abbrev W1 : Dev nD → Valuation τ sig (Elt F) := fun c => StableHlo.after hostOps0 (W0 m c)
abbrev W2 : Dev nD → Valuation τ sig (Elt F) := fun c => StableHlo.after hostOps0_1 (W1 m c)
abbrev W3 : Dev nD → Valuation τ sig (Elt F) := fun c => StableHlo.after hostOps0_2 (W2 m c)
abbrev W4 : Dev nD → Valuation τ sig (Elt F) := fun c => StableHlo.after hostOps0_3 (W3 m c)
abbrev W5 : Dev nD → Valuation τ sig (Elt F) := fun c => StableHlo.after hostOps0_4 (W4 m c)
abbrev W6 : Dev nD → Valuation τ sig (Elt F) := fun c => StableHlo.after hostOps0_5 (W5 m c)
abbrev W7 : Dev nD → Valuation τ sig (Elt F) := fun c => StableHlo.after hostOps0_6 (W6 m c)

abbrev V7 : (c : Dev nD) → (b : Ref sig .tc) → Buf (Elt F) ((c : Thread nD τ).loc b) := fun c b => W7 m c b

def W8 (c : Dev nD) : Valuation τ sig (Elt F) :=
  Pipeline.withArrays spec0 c (W7 m c) fun w => (dat0 (V7 m) c).arrAt w cfg0.N
theorem W8_arr (c : Dev nD) (w : Fin cfg0.W) :
    W8 m c (Proc.devRef .tc (Pipeline.arrRef spec0 w)) = (dat0 (V7 m) c).arrAt w cfg0.N := by
  unfold W8; exact Pipeline.withArrays_arr spec0 launch0.win.arr_inj c _ _ w
theorem W8_of_ne (c : Dev nD) (b : Ref sig .tc) (hb : ∀ w, Pipeline.arrRef spec0 w ≠ b) :
    W8 m c (Proc.devRef .tc b) = W7 m c (Proc.devRef .tc b) := by
  unfold W8; exact Pipeline.withArrays_of_ne spec0 c _ _ b hb
abbrev V8 : (c : Dev nD) → (b : Ref sig .tc) → Buf (Elt F) ((c : Thread nD τ).loc b) := fun c b => W8 m c b
theorem hF0 (c : Dev nD) (w : Fin cfg0.W) : (dat0 (V7 m) c).arrAt w cfg0.N = V8 m c (Pipeline.arrRef spec0 w) :=
  (W8_arr m c w).symm
theorem hrest0 (c : Dev nD) : ∀ b, b ∉ Finset.univ.image (Pipeline.arrRef spec0) → V8 m c b = V7 m c b :=
  fun b hb => W8_of_ne m c b fun w e => hb (Finset.mem_image.mpr ⟨w, Finset.mem_univ _, e⟩)

abbrev W9 : Dev nD → Valuation τ sig (Elt F) := fun c => StableHlo.after hostOps1 (W8 m c)
abbrev V9 : (c : Dev nD) → (b : Ref sig .tc) → Buf (Elt F) ((c : Thread nD τ).loc b) := fun c b => W9 m c b

def W10 (c : Dev nD) : Valuation τ sig (Elt F) :=
  Pipeline.withArrays spec1 c (W9 m c) fun w => (dat1 (V9 m) c).arrAt w cfg1.N
theorem W10_arr (c : Dev nD) (w : Fin cfg1.W) :
    W10 m c (Proc.devRef .tc (Pipeline.arrRef spec1 w)) = (dat1 (V9 m) c).arrAt w cfg1.N := by
  unfold W10; exact Pipeline.withArrays_arr spec1 launch1.win.arr_inj c _ _ w
theorem W10_of_ne (c : Dev nD) (b : Ref sig .tc) (hb : ∀ w, Pipeline.arrRef spec1 w ≠ b) :
    W10 m c (Proc.devRef .tc b) = W9 m c (Proc.devRef .tc b) := by
  unfold W10; exact Pipeline.withArrays_of_ne spec1 c _ _ b hb
abbrev V10 : (c : Dev nD) → (b : Ref sig .tc) → Buf (Elt F) ((c : Thread nD τ).loc b) := fun c b => W10 m c b
theorem hF1 (c : Dev nD) (w : Fin cfg1.W) : (dat1 (V9 m) c).arrAt w cfg1.N = V10 m c (Pipeline.arrRef spec1 w) :=
  (W10_arr m c w).symm
theorem hrest1 (c : Dev nD) : ∀ b, b ∉ Finset.univ.image (Pipeline.arrRef spec1) → V10 m c b = V9 m c b :=
  fun b hb => W10_of_ne m c b fun w e => hb (Finset.mem_image.mpr ⟨w, Finset.mem_univ _, e⟩)

end Cert.KernelIdeal.Fr

end
-- ==== Proof.KBody0.lean ====
import proofs.«402726_j40862318854444_3_alg».proof.Proof.KDefs
import proofs.«402726_j40862318854444_3_alg».proof.Proof.Gen.KernelIdeal.Skeleton
import Idealize.ShloMosaic.Lib.Pipeline.FrameBody
import Idealize.ShloMosaic.Lib.Pipeline.Value
import Idealize.ShloMosaic.Lib.Ring
import Idealize.ShloMosaic.Lib.Tactic

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F]

local notation "𝕄" => MT nD τ sig Unit (Elt F) ℕ (UR sig nD τ) ℕ

theorem kb0_readAt_whole {κ : Kind} {sp : Space} {S : Shape} {e : EltTy} (v : View sig κ sp S e) (f : v.ty.Contents (Elt F))
    {off : Fin S.rank → ℕ} (h : off = fun _ => 0) (inb : ∀ a, off a + S.size a ≤ S.size a) :
    View.readAt (Elt F) v (Rect.unit off S.size inb).toLoadRect f = View.read (Elt F) v f :=
  View.ld_unit_zero h inb _

theorem kb0_read_writes_whole {κ : Kind} {sp : Space} {S : Shape} {e : EltTy} (v : View sig κ sp S e) (f : v.ty.Contents (Elt F))
    {off : Fin S.rank → ℕ} (h : off = fun _ => 0) (inb : ∀ a, off a + S.size a ≤ S.size a) (w : S.Idx → Elt F e)
    (L : List (View.Piece (Elt F) S e)) :
    View.read (Elt F) v (v.writes (Elt F) f (⟨Rect.unit off S.size inb, w⟩ :: L)) = w :=
  (View.read_writes_eq_canon v f _ (fun y => ⟨_, List.mem_cons_self, View.mem_set_unit_zero h inb y⟩)).trans
    (View.canon_cons_unit_zero h inb w L)

theorem kb0_zeros2 : (![0, 0] : Fin 2 → ℕ) = fun _ => 0 := by funext a; fin_cases a <;> rfl
theorem kb0_zeros3 : (![0, 0, 0] : Fin 3 → ℕ) = fun _ => 0 := by funext a; fin_cases a <;> rfl

def accIn (i : grid0.Coords) (s : Vec F S1x1024 .f32) : Vec F S1x1024 .f32 := if (i 1).val = 0 then accZero else s
def accIn' (i : grid0.Coords) (q : Vec F S1x1024 .f32) : Vec F S1x1024 .f32 := if (i 1).val = 0 then accZero' else q

abbrev kb0_cond1 (i : grid0.Coords) : Prop :=
  (Scalar.cmpi .ne (Scalar.extui (Scalar.cmpi .eq (BitVec.ofNat 32 (i 1).val) 0#32)) 0#32) = 1#1

theorem kb0_hcond1 (i : grid0.Coords) : kb0_cond1 i ↔ (i 1).val = 0 :=
  (by decide : ∀ j : Fin 8, (Scalar.cmpi .ne (Scalar.extui (Scalar.cmpi .eq (BitVec.ofNat 32 j.val) 0#32)) 0#32) = 1#1 ↔ j.val = 0) (i 1)

theorem kb0_hcond2 (i : grid0.Coords) : k0_cond2 i = 1#1 ↔ (i 1).val = 7 :=
  (by decide : ∀ j : Fin 8, (Scalar.cmpi .ne (Scalar.extui (Scalar.cmpi .eq (BitVec.ofNat 32 j.val) 7#32)) 0#32) = 1#1 ↔ j.val = 7) (i 1)

-- Every store covers its buffer, so each buffer ends at the value last stored; the two tests hold at the first and the last batch only.
theorem sound_kernel0 (c : Dev nD) (E : Set ℕ) (i : grid0.Coords)
    (arg2 : Memref sig .tc .vmem S1x512x256 .f32) (harg2 : arg2.IsWhole) (arg3 : Memref sig .tc .vmem S256x512 .bf16) (harg3 : arg3.IsWhole) (arg4 : Memref sig .tc .vmem S256x512 .bf16) (harg4 : arg4.IsWhole) (arg5 : Memref sig .tc .vmem S256x512 .bf16) (harg5 : arg5.IsWhole) (arg6 : Memref sig .tc .vmem S256x256 .bf16) (harg6 : arg6.IsWhole) (arg7 : Memref sig .tc .vmem S1x256 .f32) (harg7 : arg7.IsWhole) (arg8 : Memref sig .tc .vmem S256x256 .bf16) (harg8 : arg8.IsWhole) (arg9 : Memref sig .tc .vmem S1x256 .f32) (harg9 : arg9.IsWhole) (arg10 : Memref sig .tc .vmem S1x256x1024 .bf16) (harg10 : arg10.IsWhole) (arg11 : Memref sig .tc .vmem S1x1x1024 .f32) (harg11 : arg11.IsWhole) (arg12 : Memref sig .tc .vmem S1x1x1024 .f32) (harg12 : arg12.IsWhole) (arg13 : Memref sig .tc .vmem S1x1024 .f32) (harg13 : arg13.IsWhole) (arg14 : Memref sig .tc .vmem S1x1024 .f32) (harg14 : arg14.IsWhole)
    (x0 : Vec F S1x512x256 .f32) (a1 a2 a3 : Vec F S256x512 .bf16) (w4 : Vec F S256x256 .bf16) (b5 : Vec F S1x256 .f32) (w6 : Vec F S256x256 .bf16) (b7 : Vec F S1x256 .f32) (d11 d12 : Vec F S1x1x1024 .f32) (s q : Vec F S1x1024 .f32) (K : PUnit → sProp 𝕄) :
    iprop(owns (c : Thread nD τ) arg2 fullShare x0 ∗ owns (c : Thread nD τ) arg3 fullShare a1 ∗ owns (c : Thread nD τ) arg4 fullShare a2 ∗ owns (c : Thread nD τ) arg5 fullShare a3 ∗ owns (c : Thread nD τ) arg6 fullShare w4 ∗ owns (c : Thread nD τ) arg7 fullShare b5 ∗ owns (c : Thread nD τ) arg8 fullShare w6 ∗ owns (c : Thread nD τ) arg9 fullShare b7
        ∗ (∃ d, owns (c : Thread nD τ) arg10 fullShare d) ∗ owns (c : Thread nD τ) arg11 fullShare d11 ∗ owns (c : Thread nD τ) arg12 fullShare d12 ∗ owns (c : Thread nD τ) arg13 fullShare s ∗ owns (c : Thread nD τ) arg14 fullShare q
        ∗ (iprop(owns (c : Thread nD τ) arg2 fullShare x0 ∗ owns (c : Thread nD τ) arg3 fullShare a1 ∗ owns (c : Thread nD τ) arg4 fullShare a2 ∗ owns (c : Thread nD τ) arg5 fullShare a3 ∗ owns (c : Thread nD τ) arg6 fullShare w4 ∗ owns (c : Thread nD τ) arg7 fullShare b5 ∗ owns (c : Thread nD τ) arg8 fullShare w6 ∗ owns (c : Thread nD τ) arg9 fullShare b7
            ∗ owns (c : Thread nD τ) arg10 fullShare (outRows i x0 a1 a2 a3 w4 b5 w6 b7) ∗ owns (c : Thread nD τ) arg11 fullShare (if (i 1).val = 7 then outAcc (accSum i x0 a1 a2 a3 w4 b5 w6 b7 (accIn i s)) else d11) ∗ owns (c : Thread nD τ) arg12 fullShare (if (i 1).val = 7 then outAcc' (accSq i x0 a1 a2 a3 w4 b5 w6 b7 (accIn' i q)) else d12)
            ∗ owns (c : Thread nD τ) arg13 fullShare (accSum i x0 a1 a2 a3 w4 b5 w6 b7 (accIn i s)) ∗ owns (c : Thread nD τ) arg14 fullShare (accSq i x0 a1 a2 a3 w4 b5 w6 b7 (accIn' i q))) -∗ K ⟨⟩))
      ⊢ wp frame (wpE (defs₀ (F := F)) Variants.none c none) E (cc0__kernel1 i arg2 harg2 arg3 harg3 arg4 harg4 arg5 harg5 arg6 harg6 arg7 harg7 arg8 harg8 arg9 harg9 arg10 harg10 arg11 harg11 arg12 harg12 arg13 harg13 arg14 harg14) K := by
  have hc1 := kb0_hcond1 i
  have hc2 := kb0_hcond2 i
  unfold accIn accIn'
  by_cases h0 : (i 1).val = 0 <;> by_cases h7 : (i 1).val = 7
  · omega
  all_goals
    simp (disch := assumption) only [if_pos, if_neg]
    simp only [cc0__kernel1_eq_skeleton]; unfold cc0__kernel1_skel
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%f11, %hf11, H11⟩, ⟨%f12, %hf12, H12⟩, ⟨%f13, %hf13, H13⟩, ⟨%f14, %hf14, H14⟩, Hk⟩
    subst hf2; subst hf3; subst hf4; subst hf5; subst hf6; subst hf7; subst hf8; subst hf9; subst hf11; subst hf12; subst hf13; subst hf14
    sl_exec (disch := first | exact hc1.mpr h0 | exact fun h => h0 (hc1.mp h) | exact hc2.mpr h7 | exact fun h => h7 (hc2.mp h))
    sl_step
    iapply Hk
    have e2 := kb0_readAt_whole (F := F) arg2.view f2 kb0_zeros3 inb_S1x512x256_S1x512x256_0_0_0
    have e3 := kb0_readAt_whole (F := F) arg3.view f3 kb0_zeros2 inb_S256x512_S256x512_0_0
    have e4 := kb0_readAt_whole (F := F) arg4.view f4 kb0_zeros2 inb_S256x512_S256x512_0_0
    have e5 := kb0_readAt_whole (F := F) arg5.view f5 kb0_zeros2 inb_S256x512_S256x512_0_0
    have e6 := kb0_readAt_whole (F := F) arg6.view f6 kb0_zeros2 inb_S256x256_S256x256_0_0
    have e7 := kb0_readAt_whole (F := F) arg7.view f7 kb0_zeros2 inb_S1x256_S1x256_0_0
    have e8 := kb0_readAt_whole (F := F) arg8.view f8 kb0_zeros2 inb_S256x256_S256x256_0_0
    have e9 := kb0_readAt_whole (F := F) arg9.view f9 kb0_zeros2 inb_S1x256_S1x256_0_0
    have e13 := kb0_readAt_whole (F := F) arg13.view f13 kb0_zeros2 inb_S1x1024_S1x1024_0_0
    have e14 := kb0_readAt_whole (F := F) arg14.view f14 kb0_zeros2 inb_S1x1024_S1x1024_0_0
    have eS : View.readAt (Elt F) arg2.view (Rect.unit (s := S1x512x256) (k0_off1 i) S1x256x256.size (k0_off1_inb i)).toLoadRect f2
        = selfRows i (View.read (Elt F) arg2.view f2) := rfl
    isplitl [H2]
    · iexists f2; isplitr; · ipureintro; rfl
      iexact H2
    isplitl [H3]
    · iexists f3; isplitr; · ipureintro; rfl
      iexact H3
    isplitl [H4]
    · iexists f4; isplitr; · ipureintro; rfl
      iexact H4
    isplitl [H5]
    · iexists f5; isplitr; · ipureintro; rfl
      iexact H5
    isplitl [H6]
    · iexists f6; isplitr; · ipureintro; rfl
      iexact H6
    isplitl [H7]
    · iexists f7; isplitr; · ipureintro; rfl
      iexact H7
    isplitl [H8]
    · iexists f8; isplitr; · ipureintro; rfl
      iexact H8
    isplitl [H9]
    · iexists f9; isplitr; · ipureintro; rfl
      iexact H9
    isplitl [H10]
    · iexists _; isplitr
      swap; · iexact H10
      ipureintro; sl_unfold_run_names
      simp only [e2, e3, e4, e5, e6, e7, e8, e9, eS]
      exact kb0_read_writes_whole (S := S1x256x1024) _ _ kb0_zeros3 _ _ _
    isplitl [H11]
    · iexists _; isplitr
      swap; · iexact H11
      ipureintro
      first
        | rfl
        | sl_unfold_run_names
          simp only [e2, e3, e4, e5, e6, e7, e8, e9, eS, e13, e14, View.readCov_unit_zero (S := S1x1024) _ kb0_zeros2]
          exact kb0_read_writes_whole (S := S1x1x1024) _ _ kb0_zeros3 _ _ _
    isplitl [H12]
    · iexists _; isplitr
      swap; · iexact H12
      ipureintro
      first
        | rfl
        | sl_unfold_run_names
          simp only [e2, e3, e4, e5, e6, e7, e8, e9, eS, e13, e14, View.readCov_unit_zero (S := S1x1024) _ kb0_zeros2]
          exact kb0_read_writes_whole (S := S1x1x1024) _ _ kb0_zeros3 _ _ _
    isplitl [H13]
    · iexists _; isplitr
      swap; · iexact H13
      ipureintro; sl_unfold_run_names
      simp only [e2, e3, e4, e5, e6, e7, e8, e9, eS, e13, View.readCov_unit_zero (S := S1x1024) _ kb0_zeros2]
      exact kb0_read_writes_whole (S := S1x1024) _ _ kb0_zeros2 _ _ _
    iexists _; isplitr
    swap; · iexact H14
    ipureintro; sl_unfold_run_names
    simp only [e2, e3, e4, e5, e6, e7, e8, e9, eS, e14, View.readCov_unit_zero (S := S1x1024) _ kb0_zeros2]
    exact kb0_read_writes_whole (S := S1x1024) _ _ kb0_zeros2 _ _ _

end Cert.KernelIdeal.Fr

end
-- ==== Proof.KObl0.lean ====
import proofs.«402726_j40862318854444_3_alg».proof.Proof.KDat
import proofs.«402726_j40862318854444_3_alg».proof.Proof.KBody0

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

theorem before0_0 (c : Dev nD) (t : Fin cfg0.N) (d) : (dat0 V c).before 0 t d = iblk0 V c 0 t :=
  ((dat0 V c).before_in_eq_fetched 0 rfl (fun _ => rfl) (fun _ _ _ => rfl) (fun t => by rw [after0_0]; unfold Dat.blockOf iblk0; rw [A_eq0]; try rfl) t d).trans
    (by unfold Dat.fetched Dat.blockOf iblk0; rw [A_eq0]; try rfl)
theorem before0_1 (c : Dev nD) (t : Fin cfg0.N) (d) : (dat0 V c).before 1 t d = iblk0 V c 1 t :=
  ((dat0 V c).before_in_eq_fetched 1 rfl (fun _ => rfl) (fun _ _ _ => rfl) (fun t => by rw [after0_1]; unfold Dat.blockOf iblk0; rw [A_eq0]; try rfl) t d).trans
    (by unfold Dat.fetched Dat.blockOf iblk0; rw [A_eq0]; try rfl)
theorem before0_2 (c : Dev nD) (t : Fin cfg0.N) (d) : (dat0 V c).before 2 t d = iblk0 V c 2 t :=
  ((dat0 V c).before_in_eq_fetched 2 rfl (fun _ => rfl) (fun _ _ _ => rfl) (fun t => by rw [after0_2]; unfold Dat.blockOf iblk0; rw [A_eq0]; try rfl) t d).trans
    (by unfold Dat.fetched Dat.blockOf iblk0; rw [A_eq0]; try rfl)
theorem before0_3 (c : Dev nD) (t : Fin cfg0.N) (d) : (dat0 V c).before 3 t d = iblk0 V c 3 t :=
  ((dat0 V c).before_in_eq_fetched 3 rfl (fun _ => rfl) (fun _ _ _ => rfl) (fun t => by rw [after0_3]; unfold Dat.blockOf iblk0; rw [A_eq0]; try rfl) t d).trans
    (by unfold Dat.fetched Dat.blockOf iblk0; rw [A_eq0]; try rfl)
theorem before0_4 (c : Dev nD) (t : Fin cfg0.N) (d) : (dat0 V c).before 4 t d = iblk0 V c 4 t :=
  ((dat0 V c).before_in_eq_fetched 4 rfl (fun _ => rfl) (fun _ _ _ => rfl) (fun t => by rw [after0_4]; unfold Dat.blockOf iblk0; rw [A_eq0]; try rfl) t d).trans
    (by unfold Dat.fetched Dat.blockOf iblk0; rw [A_eq0]; try rfl)
theorem before0_5 (c : Dev nD) (t : Fin cfg0.N) (d) : (dat0 V c).before 5 t d = iblk0 V c 5 t :=
  ((dat0 V c).before_in_eq_fetched 5 rfl (fun _ => rfl) (fun _ _ _ => rfl) (fun t => by rw [after0_5]; unfold Dat.blockOf iblk0; rw [A_eq0]; try rfl) t d).trans
    (by unfold Dat.fetched Dat.blockOf iblk0; rw [A_eq0]; try rfl)
theorem before0_6 (c : Dev nD) (t : Fin cfg0.N) (d) : (dat0 V c).before 6 t d = iblk0 V c 6 t :=
  ((dat0 V c).before_in_eq_fetched 6 rfl (fun _ => rfl) (fun _ _ _ => rfl) (fun t => by rw [after0_6]; unfold Dat.blockOf iblk0; rw [A_eq0]; try rfl) t d).trans
    (by unfold Dat.fetched Dat.blockOf iblk0; rw [A_eq0]; try rfl)
theorem before0_7 (c : Dev nD) (t : Fin cfg0.N) (d) : (dat0 V c).before 7 t d = iblk0 V c 7 t :=
  ((dat0 V c).before_in_eq_fetched 7 rfl (fun _ => rfl) (fun _ _ _ => rfl) (fun t => by rw [after0_7]; unfold Dat.blockOf iblk0; rw [A_eq0]; try rfl) t d).trans
    (by unfold Dat.fetched Dat.blockOf iblk0; rw [A_eq0]; try rfl)

theorem batch_of : ∀ t : Fin cfg0.N, ((grid0.coords t) 1).val = t.val % 8 :=
  (by decide +kernel : ∀ t : Fin grid0.N, ((grid0.coords t) 1).val = t.val % 8)

theorem liveAt0 : ∀ w : Fin cfg0.W, w.val ≤ 8 → ∀ t : Fin cfg0.N, cfg0.idle w (grid0.coords t) = false := by decide +kernel
theorem idleAt0 : ∀ w : Fin cfg0.W, 9 ≤ w.val → ∀ t : Fin cfg0.N, ((grid0.coords t) 1).val ≠ 7 →
    cfg0.idle w (grid0.coords t) = true ∧ (cfg0.win w).flush t = false := by decide +kernel
theorem lastAt0 : ∀ w : Fin cfg0.W, 9 ≤ w.val → ∀ t : Fin cfg0.N, ((grid0.coords t) 1).val = 7 →
    cfg0.idle w (grid0.coords t) = false := by decide +kernel

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d))
    ∗ (∃ d, owns (c : Thread nD τ) (st0_9 t) fullShare ((dat0 V c).before 9 t d))
    ∗ (∃ d, owns (c : Thread nD τ) (st0_10 t) fullShare ((dat0 V c).before 10 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t
    ∗ (dat0 V c).leavesExact 6 t
    ∗ (dat0 V c).leavesExact 7 t
    ∗ (dat0 V c).leavesExact 8 t
    ∗ (dat0 V c).leavesExact 9 t
    ∗ (dat0 V c).leavesExact 10 t)

theorem leaves0 (c : Dev nD) (w : Fin cfg0.W) (hw : w.val ≤ 8) (t : Fin cfg0.N) :
    (dat0 V c).leavesExact w t = owns (c : Thread nD τ) ((cfg0.win w).stage (cfg0.slots t w)) fullShare ((dat0 V c).after w t) := by
  unfold Dat.leavesExact; rw [liveAt0 w hw t]

-- The two results of running sums take their value at a core's last batch only.
theorem leaves0_acc (c : Dev nD) (w : Fin cfg0.W) (hw : 9 ≤ w.val) (t : Fin cfg0.N) :
    (dat0 V c).leavesExact w t = if ((grid0.coords t) 1).val = 7
      then owns (c : Thread nD τ) ((cfg0.win w).stage (cfg0.slots t w)) fullShare ((dat0 V c).after w t)
      else iprop(∃ d, owns (c : Thread nD τ) ((cfg0.win w).stage (cfg0.slots t w)) fullShare ((dat0 V c).before w t d)) := by
  by_cases h7 : ((grid0.coords t) 1).val = 7
  · rw [if_pos h7]; unfold Dat.leavesExact; rw [lastAt0 w hw t h7]
  · rw [if_neg h7]; exact Dat.leavesExact_idle _ w t (idleAt0 w hw t h7).1 (idleAt0 w hw t h7).2

-- Before any point the two running sums are at some value: after a point, at what that point left.
theorem PhiS_open (c : Dev nD) (n : ℕ) (h : n ≤ cfg0.N) :
    PhiS V c n h ⊢ (iprop(∃ s q, ⌜∀ hn : n ≠ 0, (s, q) = accAt V c (n - 1) (by omega)⌝
      ∗ (owns (c : Thread nD τ) scS fullShare s ∗ owns (c : Thread nD τ) scQ fullShare q ∗ rest0 (F := F) c) ∗ (∃ r, prngReg c r)) : sProp 𝕄) := by
  cases n with
  | zero =>
    rw [show PhiS V c 0 h = Pipeline.ΦA spec0 c from rfl, PhiA0_eq]
    iintro ⟨⟨⟨%s, HS⟩, ⟨%q, HQ⟩, Hr⟩, Hg⟩
    iexists s, q; isplitr; · ipureintro; exact fun hn => absurd rfl hn
    iframe
  | succ n =>
    rw [PhiS_succ]
    iintro H
    iexists (accAt V c n h).1, (accAt V c n h).2; isplitr; · ipureintro; exact fun _ => rfl
    iexact H

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6, before0_7]
  rw [show (dat0 V c).owesAt () t.succ = (dat0 V c).owesAt () t.castSucc from rfl,
    show (dat0 V c).Φ t.succ = PhiS V c (t.val + 1) t.isLt from rfl, PhiS_succ, PhiS_castSucc,
    leaves0 V c 0 (by decide), leaves0 V c 1 (by decide), leaves0 V c 2 (by decide), leaves0 V c 3 (by decide), leaves0 V c 4 (by decide),
    leaves0 V c 5 (by decide), leaves0 V c 6 (by decide), leaves0 V c 7 (by decide), leaves0 V c 8 (by decide),
    leaves0_acc V c 9 (by decide), leaves0_acc V c 10 (by decide),
    after0_0, after0_1, after0_2, after0_3, after0_4, after0_5, after0_6, after0_7, after0_8, after0_9, after0_10]
  unfold outRowsAt
  iintro ⟨HP, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  ihave HP' := PhiS_open V c t.val (Nat.le_of_lt t.isLt) $$ HP
  icases HP' with ⟨%s, %q, %hsq, ⟨HS, HQ, Hr⟩, Hg⟩
  iapply (sound_kernel0 c Set.univ (grid0.coords t) _ _ _ _ _ _ _ _ _ _ _ _ _ _ _ _ _ _ _ _ _ _ _ _ _ _
    (bx0 V c t) (ba1 V c t) (ba2 V c t) (ba3 V c t) (bw4 V c t) (bb5 V c t) (bw6 V c t) (bb7 V c t)
    ((dat0 V c).before 9 t d9) ((dat0 V c).before 10 t d10) s q _)
  iframe H0 H1 H2 H3 H4 H5 H6 H7
  isplitl [H8]; · iexists _; iexact H8
  iframe H9 H10 HS HQ
  iintro ⟨H0, H1, H2, H3, H4, H5, H6, H7, H8, H9, H10, HS, HQ⟩
  have hb := batch_of t
  have hacc : accAt V c t.val t.isLt
      = (accSum (grid0.coords t) (bx0 V c t) (ba1 V c t) (ba2 V c t) (ba3 V c t) (bw4 V c t) (bb5 V c t) (bw6 V c t) (bb7 V c t) (accIn (grid0.coords t) s),
         accSq (grid0.coords t) (bx0 V c t) (ba1 V c t) (ba2 V c t) (ba3 V c t) (bw4 V c t) (bb5 V c t) (bw6 V c t) (bb7 V c t) (accIn' (grid0.coords t) q)) := by
    unfold accIn accIn'
    by_cases h0 : t.val % 8 = 0
    · rw [accAt_first V c _ _ h0, if_pos (hb.trans h0), if_pos (hb.trans h0)]; rfl
    · rw [accAt_next V c _ _ h0, ← hsq (fun h => h0 (by rw [h])), if_neg (fun h => h0 (hb.symm.trans h)), if_neg (fun h => h0 (hb.symm.trans h))]; rfl
  rw [hacc]
  iframe HS HQ Hr Hg Ho H0 H1 H2 H3 H4 H5 H6 H7 H8
  by_cases h7 : ((grid0.coords t) 1).val = 7
  · simp only [if_pos h7]; iframe
  · simp only [if_neg h7]
    isplitl [H9]; · iexists _; iexact H9
    iexists _; iexact H10

theorem body_obligation0 (c : Dev nD) : BodyObligation (dat0 (F := F) V c) (defs₀ (F := F)) Variants.none () Set.univ := fun t => by
  rw [bigSep_W0, bigSep_W0]
  exact sound_body0 V c t

end Cert.KernelIdeal.Fr

end
-- ==== Proof.KBody1.lean ====
import proofs.«402726_j40862318854444_3_alg».proof.Proof.KDefs
import proofs.«402726_j40862318854444_3_alg».proof.Proof.Gen.KernelIdeal.Skeleton
import Idealize.ShloMosaic.Lib.Pipeline.FrameBody
import Idealize.ShloMosaic.Lib.Pipeline.Value
import Idealize.ShloMosaic.Lib.Ring
import Idealize.ShloMosaic.Lib.Tactic

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F]

local notation "𝕄" => MT nD τ sig Unit (Elt F) ℕ (UR sig nD τ) ℕ

theorem sound_kernel1 (c : Dev nD) (E : Set ℕ) (i : grid1.Coords) (arg1 : Memref sig .tc .vmem S8x64x1024 .bf16) (harg1 : arg1.IsWhole) (arg2 : Memref sig .tc .vmem S1x1x1024 .f32) (harg2 : arg2.IsWhole) (arg3 : Memref sig .tc .vmem S1x1x1024 .f32) (harg3 : arg3.IsWhole) (arg4 : Memref sig .tc .vmem S8x64x1024 .f32) (harg4 : arg4.IsWhole) (x0 : Vec F S8x64x1024 .bf16) (x1 x2 : Vec F S1x1x1024 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (outAffine x0 x1 x2)) -∗ K ⟨⟩))
      ⊢ wp frame (wpE (defs₀ (F := F)) Variants.none c none) E (cc1__kernel2 i arg1 harg1 arg2 harg2 arg3 harg3 arg4 harg4) K := by
  simp only [cc1__kernel2_eq_skeleton]; unfold cc1__kernel2_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  have z3 : (![0, 0, 0] : Fin 3 → ℕ) = fun _ => 0 := by funext a; fin_cases a <;> rfl
  have e0 : View.readAt (Elt F) arg1.view (Rect.unit ![0, 0, 0] S8x64x1024.size inb_S8x64x1024_S8x64x1024_0_0_0).toLoadRect f0
      = View.read (Elt F) arg1.view f0 := View.ld_unit_zero (S := S8x64x1024) z3 inb_S8x64x1024_S8x64x1024_0_0_0 _
  have e1 : View.readAt (Elt F) arg2.view (Rect.unit ![0, 0, 0] S1x1x1024.size inb_S1x1x1024_S1x1x1024_0_0_0).toLoadRect f1
      = View.read (Elt F) arg2.view f1 := View.ld_unit_zero (S := S1x1x1024) z3 inb_S1x1x1024_S1x1x1024_0_0_0 _
  have e2 : View.readAt (Elt F) arg3.view (Rect.unit ![0, 0, 0] S1x1x1024.size inb_S1x1x1024_S1x1x1024_0_0_0).toLoadRect f2
      = View.read (Elt F) arg3.view f2 := View.ld_unit_zero (S := S1x1x1024) z3 inb_S1x1x1024_S1x1x1024_0_0_0 _
  rw [e0, e1, e2]
  refine (View.read_writes_eq_canon _ _ _ (fun y => ?_)).trans ?_
  · exact ⟨_, List.mem_singleton_self _, View.mem_set_unit_zero (S := S8x64x1024) z3 inb_S8x64x1024_S8x64x1024_0_0_0 y⟩
  exact View.canon_unit_zero (S := S8x64x1024) z3 inb_S8x64x1024_S8x64x1024_0_0_0 _

end Cert.KernelIdeal.Fr

end
-- ==== Proof.KObl1.lean ====
import proofs.«402726_j40862318854444_3_alg».proof.Proof.KDat
import proofs.«402726_j40862318854444_3_alg».proof.Proof.KBody1

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

theorem before1_0 (c : Dev nD) (t : Fin cfg1.N) (d) : (dat1 V c).before 0 t d = iblk1 V c 0 t :=
  ((dat1 V c).before_in_eq_fetched 0 rfl (fun _ => rfl) (fun _ _ _ => rfl) (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl) (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl) (fun t => by rw [after1_2]; unfold Dat.blockOf iblk1; rw [A_eq1]; try rfl) t d).trans
    (by unfold Dat.fetched Dat.blockOf iblk1; rw [A_eq1]; try rfl)

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ (grid1.coords t) _ _ _ _ _ _ _ _ (iblk1 V c 0 t) (iblk1 V c 1 t) (iblk1 V c 2 t) _)
  iframe H0 H1 H2
  isplitl [H3]; · iexists _; iexact H3
  iintro ⟨H0, H1, H2, H3⟩
  iframe

theorem body_obligation1 (c : Dev nD) : BodyObligation (dat1 (F := F) V c) (defs₀ (F := F)) Variants.none () Set.univ := fun t => by
  rw [bigSep_W1, bigSep_W1]
  exact sound_body1 V c t

end Cert.KernelIdeal.Fr

end
-- ==== Proof.KRun.lean ====
import proofs.«402726_j40862318854444_3_alg».proof.Proof.KFold
import proofs.«402726_j40862318854444_3_alg».proof.Proof.KObl0
import proofs.«402726_j40862318854444_3_alg».proof.Proof.KObl1
import proofs.«402726_j40862318854444_3_alg».proof.Proof.Gen.KernelIdeal.Regions
import Idealize.ShloMosaic.Lib.Pipeline.RegionsLoop

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev hadm : (p : Fin 2) → (pcfgs (F := F) p).Adm := fun p => (cfgs p).toPCfg_adm

def pdats : (p : Fin 2) → (c : Dev nD) → Dat τ (Elt F) Unit ℕ (UR sig nD τ) ℕ (Pipeline.pin (pcfgs (F := F)) hadm p) c
  | ⟨0, _⟩ => fun c => dat0 (V7 m) c
  | ⟨1, _⟩ => fun c => dat1 (V9 m) c

abbrev 𝒱n : Variants := Variants.none
abbrev Ln : GSem nD τ sig → Finset Unit := fun _ => ∅
abbrev lvn : GSem nD τ sig → Unit → ℕ := fun _ _ => 0

abbrev Rd (c : Dev nD) : sProp 𝕄 := iprop((∃ r, prngReg c r) ∗ ∃ W, owes (c : Thread nD τ) (0 : CellTallies nD τ sig Unit) W)

abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱n Ln lvn :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rd

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

abbrev Tn (c : Dev nD) : sProp 𝕄 := iprop(StableHlo.held (c : Thread nD τ) (Pipeline.ucRefs τ sig) (W10 m c) ∗ ∃ r, prngReg c r)

theorem Phi0_out (c : Dev nD) (t : Fin (cfg0.N + 1)) (ht : t.val ≠ 0) : (dat0 (V7 m) c).Φ t ⊢ Pipeline.ΦA spec0 c := by
  rw [show (dat0 (V7 m) c).Φ t = PhiS (V7 m) c t.val (Nat.le_of_lt_succ t.isLt) from rfl, PhiS_pos (V7 m) c _ _ ht, PhiA0_eq]
  iintro ⟨⟨HS, HQ, Hr⟩, Hg⟩
  iframe Hr Hg
  isplitl [HS] <;> (iexists _; iassumption)

set_option backward.isDefEq.respectTransparency.types false in

def reg0 : Pipeline.RegionSeg (pcfgs (F := F)) hadm (pdats m) () defs₀ 𝒱n Ln lvn 0 where
  win := launch0.win.to₀
  block_pos := launch0.block_pos
  stage_whole := launch0.stage_whole
  K := PEmpty
  osem k := k.elim
  ho := Pipeline.OwnSemFacts.none _
  hbody c := (body_obligation0 (V7 m) c).loose
  hwaits := Pipeline.hwaits_of_owed_zero _ _ _ _ Ln lvn 0 fun _ _ => rfl
  pre c := iprop(StableHlo.held (c : Thread nD τ) (Pipeline.ucRefs τ sig) (W7 m c) ∗ Rd c)
  post c := iprop(StableHlo.held (c : Thread nD τ) (Pipeline.ucRefs τ sig) (W8 m c) ∗ Rd c)
  X c := iprop(∃ r, prngReg c r)
  Y c := iprop(∃ r, prngReg c r)
  Z c := Pipeline.unscopedRest (Ix := Unit) (Name := ℕ) (U := UR sig nD τ) (Lvl := ℕ) spec0 c (V7 m c)
  hentry c := by
    rw [Pipeline.ownSems0_none]
    have hsplit := Pipeline.arrays_of_unscopedBufs (p := 0) (pcfgs (F := F)) hadm (pdats m) launch0.win launch0.arr_whole c
      ((pdats m 0 c).share_full fun _ => rfl) (V7 m c) fun _ => rfl
    rw [Pipeline.unscopedBufs_held] at hsplit
    iintro ⟨⟨Hub, Hp, HO⟩, -, -⟩
    ihave H := hsplit $$ Hub
    icases H with ⟨Ha, Hrest⟩
    imodintro
    iframe Ha Hp Hrest
    isplitr; · unfold Pipeline.prefHeld; rw [show (Finset.univ : Finset (Fin 0)) = ∅ from rfl, BI.bigSep_empty]; iempintro
    unfold Pipeline.Dat.owesAt Pipeline.owesWithin
    icases HO with ⟨%W, HO⟩; iexists W; isplitr; · ipureintro; exact fun _ _ => Or.inl trivial
    iexact HO
  hin c := by
    rw [show (pdats m 0 c).Φ 0 = Pipeline.ΦA spec0 c from rfl]; unfold Pipeline.ΦA
    iintro ⟨Hp, -, Hr⟩
    iframe
  hout c := by
    rw [Pipeline.ownSems0_none]
    refine (Phi0_out m c (Fin.last _) (by rw [Fin.val_last]; have : cfg0.N = 16 := N_0; omega)).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) hadm (Ix := Unit) (Name := ℕ) (U := UR sig nD τ) (Lvl := ℕ)
      launch0.win launch0.arr_whole c (pdats m) ((pdats m 0 c).share_full fun _ => rfl)
      (V7 m c) (V8 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in

def reg1 : Pipeline.RegionSeg (pcfgs (F := F)) hadm (pdats m) () defs₀ 𝒱n Ln lvn 1 where
  win := launch1.win.to₀
  block_pos := launch1.block_pos
  stage_whole := launch1.stage_whole
  K := PEmpty
  osem k := k.elim
  ho := Pipeline.OwnSemFacts.none _
  hbody c := (body_obligation1 (V9 m) c).loose
  hwaits := Pipeline.hwaits_of_owed_zero _ _ _ _ Ln lvn 1 fun _ _ => rfl
  pre c := iprop(StableHlo.held (c : Thread nD τ) (Pipeline.ucRefs τ sig) (W9 m c) ∗ Rd c)
  post c := iprop(Tn m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V9 m c)
  hentry c := by
    rw [Pipeline.ownSems0_none]
    have hsplit := Pipeline.arrays_of_unscopedBufs (p := 1) (pcfgs (F := F)) hadm (pdats m) launch1.win launch1.arr_whole c
      ((pdats m 1 c).share_full fun _ => rfl) (V9 m c) fun _ => rfl
    rw [Pipeline.unscopedBufs_held] at hsplit
    iintro ⟨⟨Hub, Hp, HO⟩, -, -⟩
    ihave H := hsplit $$ Hub
    icases H with ⟨Ha, Hrest⟩
    imodintro
    iframe Ha Hp Hrest
    isplitr; · unfold Pipeline.prefHeld; rw [show (Finset.univ : Finset (Fin 0)) = ∅ from rfl, BI.bigSep_empty]; iempintro
    unfold Pipeline.Dat.owesAt Pipeline.owesWithin
    icases HO with ⟨%W, HO⟩; iexists W; isplitr; · ipureintro; exact fun _ _ => Or.inl trivial
    iexact HO
  hin c := by
    rw [show (pdats m 1 c).Φ 0 = Pipeline.ΦA spec1 c from rfl]; unfold Pipeline.ΦA
    iintro ⟨Hp, -, Hr⟩
    iframe
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) hadm (Ix := Unit) (Name := ℕ) (U := UR sig nD τ) (Lvl := ℕ)
      launch1.win launch1.arr_whole c (pdats m) ((pdats m 1 c).share_full fun _ => rfl)
      (V9 m c) (V10 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

abbrev segsK : List (Pipeline.Seg (pcfgs (F := F)) hadm (pdats m) () defs₀ 𝒱n Ln lvn) :=
  [ .host (hseg hostOps0 hostOps0_sub hostOps0_fresh (W0 m)),
    .host (hseg hostOps0_1 hostOps0_1_sub hostOps0_1_fresh (W1 m)),
    .host (hseg hostOps0_2 hostOps0_2_sub hostOps0_2_fresh (W2 m)),
    .host (hseg hostOps0_3 hostOps0_3_sub hostOps0_3_fresh (W3 m)),
    .host (hseg hostOps0_4 hostOps0_4_sub hostOps0_4_fresh (W4 m)),
    .host (hseg hostOps0_5 hostOps0_5_sub hostOps0_5_fresh (W5 m)),
    .host (hseg hostOps0_6 hostOps0_6_sub hostOps0_6_fresh (W6 m)),
    .region (reg0 m),
    .host (hseg hostOps1 hostOps1_sub hostOps1_fresh (W8 m)),
    .region (reg1 m) ]

theorem main_run (c : Dev nD) : main (F := F) c = Pipeline.Seg.run (segsK m) := (main_chain c).trans (by chain_rfl)

set_option backward.isDefEq.respectTransparency.types false in

theorem run_all : θ_run defs (onTc (τ := τ) (main (F := F))) ⟨m, fun _ => 0, ρ⟩ (fun r => ∀ c : Dev nD,
      ∀ b ∈ Pipeline.ucRefs τ sig, r.2.mem (((c : Thread nD τ)).1, b) = W10 m c b) :=
  Pipeline.θ_run_regions_kit (pcfgs (F := F)) hadm (pdats m) () cellOf_inj emb₁ defs₀ 𝒱n Ln lvn m ρ main (segsK m)
    (fun c Q => by rw [main_run m c])
    (by simp only [segsK, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ Rd c)) (Tₙ := Tn m)
    (hch := ⟨fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach Ln lvn fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m c b)
    (hfin := fun c s' => by
      iintro ⟨⟨Hh, -⟩, HSI⟩
      unfold StableHlo.held
      imodintro
      iapply (pointsTo_read_all (Pipeline.ucRefs τ sig) (fun b => (((c : Thread nD τ)).1, b)) (W10 m c) s')
      isplitl [Hh] <;> iassumption)
    (hQ := fun s h c => h c)

end Cert.KernelIdeal.Fr

end
-- ==== Proof.KArgs.lean ====
import proofs.«402726_j40862318854444_3_alg».proof.Proof.KRun

noncomputable section

namespace Cert.KernelIdeal.Fr

open Idealize.ShloMosaic Idealize.ShloMosaic.TcCoe
open Idealize.SL Idealize.SL.Sem
open Idealize.ShloMosaic.Pipeline (Dat)
open Cert.KernelIdeal Cert.KernelIdeal.Gen

variable {F : FTy → Type} [FloatOps F]

variable (m : (ℓ : Loc nD τ sig) → Buf (Elt F) ℓ) (ρ : Dev nD → PrngReg)

-- A buffer that is no result of a host operation, no array of region 1, and of region 0 at most the first, read-only operand.
abbrev Kept (b : Ref sig .tc) : Prop :=
  ¬ (Proc.devRef .tc b : DevRef τ sig).isScoped
    ∧ b ∉ hostOps0_W ++ hostOps0_1_W ++ hostOps0_2_W ++ hostOps0_3_W ++ hostOps0_4_W ++ hostOps0_5_W ++ hostOps0_6_W ++ hostOps1_W
    ∧ (∀ w, Pipeline.arrRef spec1 w ≠ b) ∧ ((∀ w, Pipeline.arrRef spec0 w ≠ b) ∨ b = main_arg0)

theorem W10_keep (c : Dev nD) (b : Ref sig .tc) (hb : Kept b) : W10 m c b = m ((c : Thread nD τ).loc b) := by
  obtain ⟨-, h, h1, h0⟩ := hb
  simp only [List.mem_append, not_or] at h
  obtain ⟨⟨⟨⟨⟨⟨⟨a0, a1⟩, a2⟩, a3⟩, a4⟩, a5⟩, a6⟩, a7⟩ := h
  have e8 : W8 m c (Proc.devRef .tc b) = W7 m c (Proc.devRef .tc b) := by
    rcases h0 with h0 | rfl
    · exact W8_of_ne m c b h0
    · exact (W8_arr m c 0).trans (((dat0 (V7 m) c).arrAt_in 0 rfl _).trans (A_eq0 (V7 m) c 0))
  exact (W10_of_ne m c b h1).trans <| (StableHlo.after_of_writes_sub hostOps1 _ hostOps1_writes a7).trans <| e8.trans <|
    (V7_of m c b a6).trans <| (V6_of m c b a5).trans <| (V5_of m c b a4).trans <| (V4_of m c b a3).trans <|
    (V3_of m c b a2).trans <| (V2_of m c b a1).trans <| (V1_of m c b a0).trans rfl

theorem W10_main_v69 (c : Dev nD) : W10 m c main_v69 = (dat1 (V9 m) c).arrAt 3 cfg1.N := W10_arr m c 3

-- Every weakly fair execution terminates, nothing faulting; the result is the last boundary's and every argument ends as launched.
theorem run_value : θ_run defs (onTc (τ := τ) (main (F := F))) ⟨m, fun _ => 0, ρ⟩ (fun r => ∀ c : Dev nD,
      r.2.mem ((c.tc : Thread nD τ).loc main_v69) = W10 m c main_v69
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c =>
    have k (b : Ref sig .tc) (hb : Kept b) : r.2.mem ((c.tc : Thread nD τ).loc b) = m ((c.tc : Thread nD τ).loc b) :=
      (h c _ (mem_uc b hb.1)).trans (W10_keep m c b hb)
    ⟨h c _ (mem_uc main_v69 (by decide)), k main_arg0 (by decide), k main_arg1 (by decide), k main_arg2 (by decide),
      k main_arg3 (by decide), k main_arg4 (by decide), k main_arg5 (by decide), k main_arg6 (by decide),
      k main_arg7 (by decide), k main_arg8 (by decide), k main_arg9 (by decide)⟩) (run_all m ρ)

theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ (h : ∀ _, _ ∧ _) c => (h c).2) (run_value m ρ)

end Cert.KernelIdeal.Fr

end
-- ==== Proof.Spec.lean ====
import Idealize.ShloMosaic.PureOps.Ideal

noncomputable section

namespace Cert.Spec

open Idealize.ShloMosaic

abbrev eps12 : EReal := Ideal.ofBits .f32 0x2B8CBCCC#32
abbrev eps5 : EReal := Ideal.ofBits .f32 0x3727C5AC#32
abbrev c4096 : EReal := Ideal.ofBits .f32 0x45800000#32
abbrev c32 : EReal := Ideal.ofBits .f32 0x42000000#32
abbrev cInv32 : EReal := Ideal.ofBits .f32 0x3D000000#32

abbrev Feat := Fin 8 → Fin 512 → Fin 256 → EReal

abbrev Chan := Fin 8 → Fin 512 → Fin 1024 → EReal

abbrev Nbrs := Fin 16384 → BitVec 32

def slot (n : Fin 512) (k : Fin 32) : Fin 16384 := ⟨n.val * 32 + k.val, by have := n.isLt; have := k.isLt; omega⟩

def nrow (idx : Nbrs) (n : Fin 512) (k : Fin 32) : Fin 512 := ⟨(idx (slot n k)).toNat % 512, Nat.mod_lt _ (by decide)⟩

def cnt (idx : Nbrs) (n j : Fin 512) : ℕ := (Finset.univ.filter fun k : Fin 32 => nrow idx n k = j).card

def meanR (x : Feat) (idx : Nbrs) : Feat := fun b n f => Ideal.div (∑ k : Fin 32, x b (nrow idx n k) f) c32

def meanK (x : Feat) (idx : Nbrs) : Feat := fun b n f => ∑ j : Fin 512, (((cnt idx n j : ℝ) : EReal) * cInv32) * x b j f

def lin (z : Feat) (W : Fin 256 → Fin 256 → EReal) (bias : Fin 256 → EReal) : Feat :=
  fun b n o => (∑ f : Fin 256, z b n f * W o f) + bias o

def hcat (h0 h1 h2 h3 : Feat) : Chan := fun b n ch =>
  if h : ch.val < 256 then h0 b n ⟨ch.val, h⟩
  else if h' : ch.val < 512 then h1 b n ⟨ch.val - 256, by omega⟩
  else if h'' : ch.val < 768 then h2 b n ⟨ch.val - 512, by omega⟩
  else h3 b n ⟨ch.val - 768, by have := ch.isLt; omega⟩

def hn (h : Chan) : Chan := fun b n ch =>
  max (Ideal.div (h b n ch) (max (Ideal.sqrt (∑ ch' : Fin 1024, h b n ch' * h b n ch')) eps12)) 0

def half (c : Fin 2) (r : Fin 256) : Fin 512 := ⟨c.val * 256 + r.val, by have := c.isLt; have := r.isLt; omega⟩

def muR (h : Chan) (ch : Fin 1024) : EReal := Ideal.div (∑ b : Fin 8, ∑ n : Fin 512, h b n ch) c4096
def varR (h : Chan) (ch : Fin 1024) : EReal :=
  Ideal.div (∑ b : Fin 8, ∑ n : Fin 512, (h b n ch - muR h ch) * (h b n ch - muR h ch)) c4096
def outR (h : Chan) (γ β : Fin 1024 → EReal) : Chan := fun b n ch =>
  (h b n ch - muR h ch) * Ideal.rsqrt (varR h ch + eps5) * γ ch + β ch

def partS (h : Chan) (c : Fin 2) (ch : Fin 1024) : EReal := ∑ b : Fin 8, ∑ r : Fin 256, h b (half c r) ch
def partQ (h : Chan) (c : Fin 2) (ch : Fin 1024) : EReal := ∑ b : Fin 8, ∑ r : Fin 256, h b (half c r) ch * h b (half c r) ch
def muK (h : Chan) (ch : Fin 1024) : EReal := Ideal.div (∑ c : Fin 2, partS h c ch) c4096
def varK (h : Chan) (ch : Fin 1024) : EReal := max (Ideal.div (∑ c : Fin 2, partQ h c ch) c4096 - muK h ch * muK h ch) 0
def scaleK (h : Chan) (γ : Fin 1024 → EReal) (ch : Fin 1024) : EReal := γ ch * Ideal.rsqrt (varK h ch + eps5)
def shiftK (h : Chan) (γ β : Fin 1024 → EReal) (ch : Fin 1024) : EReal := β ch - muK h ch * scaleK h γ ch
def outK (h : Chan) (γ β : Fin 1024 → EReal) : Chan := fun b n ch => h b n ch * scaleK h γ ch + shiftK h γ β ch

section
variable (x : Feat) (i1 i2 i3 : Nbrs) (Wx : Fin 256 → Fin 256 → EReal) (bx : Fin 256 → EReal)
  (Wn : Fin 256 → Fin 256 → EReal) (bn : Fin 256 → EReal) (γ β : Fin 1024 → EReal)

def hK : Chan := hn (hcat (lin x Wx bx) (lin (meanK x i1) Wn bn) (lin (meanK x i2) Wn bn) (lin (meanK x i3) Wn bn))

def hR : Chan := hn (hcat (lin x Wx bx) (lin (meanR x i1) Wn bn) (lin (meanR x i2) Wn bn) (lin (meanR x i3) Wn bn))

def K : Chan := outK (hK x i1 i2 i3 Wx bx Wn bn) γ β

def R : Chan := outR (hR x i1 i2 i3 Wx bx Wn bn) γ β
end

def Fin3 (x : Feat) : Prop := ∀ b n f, ∃ r : ℝ, x b n f = (r : EReal)
def Fin2 (W : Fin 256 → Fin 256 → EReal) : Prop := ∀ o f, ∃ r : ℝ, W o f = (r : EReal)
def Fin1 {n : ℕ} (v : Fin n → EReal) : Prop := ∀ i, ∃ r : ℝ, v i = (r : EReal)

def InRange (idx : Nbrs) : Prop := ∀ j, 0 ≤ (idx j).toInt ∧ (idx j).toInt < 512

end Cert.Spec

end
-- ==== Proof.SpecK.lean ====
import proofs.«402726_j40862318854444_3_alg».proof.Proof.Spec

noncomputable section

namespace Cert.Spec

open Idealize.ShloMosaic

def mm (A : Fin 512 → Fin 512 → EReal) (x : Feat) : Feat := fun b n f => ∑ j : Fin 512, A n j * x b j f

def linT (z : Feat) (WT : Fin 256 → Fin 256 → EReal) (bias : Fin 256 → EReal) : Feat :=
  fun b n o => (∑ f : Fin 256, z b n f * WT f o) + bias o

def hKer (x : Feat) (A1 A2 A3 : Fin 512 → Fin 512 → EReal) (WxT : Fin 256 → Fin 256 → EReal) (bx : Fin 256 → EReal)
    (WnT : Fin 256 → Fin 256 → EReal) (bn : Fin 256 → EReal) : Chan :=
  hn (hcat (linT x WxT bx) (linT (mm A1 x) WnT bn) (linT (mm A2 x) WnT bn) (linT (mm A3 x) WnT bn))

def adj (idx : Nbrs) : Fin 512 → Fin 512 → EReal := fun n j => ((cnt idx n j : ℝ) : EReal) * cInv32

def scaleOf (S Q : Fin 2 → Fin 1024 → EReal) (γ : Fin 1024 → EReal) (ch : Fin 1024) : EReal :=
  γ ch * Ideal.rsqrt (max (Ideal.div (∑ c : Fin 2, Q c ch) c4096 - Ideal.div (∑ c : Fin 2, S c ch) c4096 * Ideal.div (∑ c : Fin 2, S c ch) c4096) 0 + eps5)
def shiftOf (S Q : Fin 2 → Fin 1024 → EReal) (γ β : Fin 1024 → EReal) (ch : Fin 1024) : EReal :=
  β ch - Ideal.div (∑ c : Fin 2, S c ch) c4096 * scaleOf S Q γ ch

theorem scaleOf_part (h : Chan) (γ : Fin 1024 → EReal) : scaleOf (partS h) (partQ h) γ = scaleK h γ := rfl
theorem shiftOf_part (h : Chan) (γ β : Fin 1024 → EReal) : shiftOf (partS h) (partQ h) γ β = shiftK h γ β := rfl

end Cert.Spec

end
-- ==== Proof.KValRowsPay.lean ====
import proofs.«402726_j40862318854444_3_alg».proof.Proof.KDefs
import proofs.«402726_j40862318854444_3_alg».proof.Proof.SpecK
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Val

open Idealize.ShloMosaic Idealize.ShloMosaic.ValueIdx
open Idealize.SL Idealize.SL.Sem
open Cert.KernelIdeal Cert.KernelIdeal.Gen Cert.KernelIdeal.Fr
/-- A matrix product without batch axes, into the zero array: entry (r, o) sums over the contracted axis. -/
theorem mm_apply {M K N : ℕ} (wf : DotDims.WF ⟨2, ![M, K]⟩ ⟨2, ![K, N]⟩ ⟨2, ![M, N]⟩ [1] [0] [0] [1] [] [])
    (A : FVec Ideal ⟨2, ![M, K]⟩ .bf16) (B : FVec Ideal ⟨2, ![K, N]⟩ .bf16) (r : Fin M) (o : Fin N) :
    matmul ⟨[1], [0], [0], [1], [], [], wf⟩ none A B (constant (F := Ideal) ⟨2, ![M, N]⟩ .f32 0x00000000#32) (ix2 r o)
      = ∑ k : Fin K, A (ix2 r k) * B (ix2 k o) := by
  refine (Ideal.matmul_constant_zero_apply _ none A B (ix2 r o)).trans ?_
  rw [← Equiv.sum_comp (contrEquiv1 _ K rfl rfl).symm]
  refine Finset.sum_congr rfl fun k _ => ?_
  have hk := contrEquiv1_symm_val (⟨[1], [0], [0], [1], [], [], wf⟩ : DotDims ⟨2, ![M, K]⟩ ⟨2, ![K, N]⟩ ⟨2, ![M, N]⟩) K rfl rfl k
  refine congrArg₂ (fun x y => A x * B y) (funext fun a => Fin.ext ?_) (funext fun a => Fin.ext ?_)
  · match a with
    | ⟨0, _⟩ => rfl
    | ⟨1, _⟩ => exact hk
  · match a with
    | ⟨0, _⟩ => exact hk
    | ⟨1, _⟩ => rfl

/-- Four blocks side by side: column `256 * k + o` is block `k`'s column `o`. -/
theorem side4 {α : Type} (P : Fin 4 → S256x256.Idx → α) (h : Shape.Concatenates [S256x256, S256x256, S256x256, S256x256] S256x1024 1)
    (k : Fin 4) (r o : Fin 256) (ch : Fin 1024) (hc : ch.val = 256 * k.val + o.val) :
    concatenate S256x1024 1 [⟨S256x256, P 0⟩, ⟨S256x256, P 1⟩, ⟨S256x256, P 2⟩, ⟨S256x256, P 3⟩] h (ix2 r ch) = P k (ix2 r o) :=
  concatenate_ofFn_apply (t := S256x1024) (s₁ := S256x256) 1 P h rfl 256 rfl (ix2 r ch) k (by show ch.val / 256 = k.val; omega) (ix2 r o)
    (by show o.val = ch.val % 256; omega) (fun b hb => by match b with | ⟨0, _⟩ => rfl | ⟨1, _⟩ => exact absurd rfl hb)

/-- The last steps on any array: each entry over the larger of its row's norm and the small constant, negatives replaced by zero. -/
theorem norm_apply (C : FVec Ideal S256x1024 .f32) (H : Fin 1024 → EReal) (r : Fin 256) (hC : ∀ ch, C (ix2 r ch) = H ch) (ch : Fin 1024) :
    maximumf (divf C (broadcastTo S256x1024 (maximumf (sqrt (shapeCast S256x1 (multiReduction .add [1] S256 (mulf C C) 0x00000000#32
      reduces_S256x1024_S256 (.inl rfl) rfl) shapeCasts_S256_S256x1)) (broadcast S256x1 (Scalar.ofBits .f32 0x2B8CBCCC#32)))
      broadcasts_S256x1_S256x1024)) (broadcast S256x1024 (Scalar.ofBits .f32 0x00000000#32)) (ix2 r ch)
      = max (Ideal.div (H ch) (max (Ideal.sqrt (∑ ch' : Fin 1024, H ch' * H ch')) Cert.Spec.eps12)) 0 := by
  obtain rfl : H = fun ch => C (ix2 r ch) := funext fun ch => (hC ch).symm
  refine congrArg₂ max (congrArg (Ideal.div (C (ix2 r ch))) ?_) Ideal.ofBits_zero_f32
  refine (broadcastTo_apply _ _ (ix2 r ch) (ix2 r (0 : Fin 1)) fun ax => by match ax with | ⟨0, _⟩ => rfl | ⟨1, _⟩ => rfl).trans ?_
  refine congrArg₂ max (congrArg Ideal.sqrt ?_) rfl
  refine (shapeCast_apply _ _ (ix2 r (0 : Fin 1)) (ix1 r) (by
    rw [Shape.rowMajor_val_two, Shape.rowMajor_val_one]; show r.val = r.val * 1 + 0; omega)).trans ?_
  refine (Ideal.multiReduction_add_single (mulf C C) _ _ _ _ (ix1 r)).trans ?_
  exact Finset.sum_congr rfl fun ch' _ => congrArg (mulf C C) (funext fun a => by match a with | ⟨0, _⟩ => rfl | ⟨1, _⟩ => rfl)

/-- A third of the stacked product with the bias: block `k`'s rows through the linear map. -/
theorem nb_apply (P : Fin 3 → FVec Ideal S256x256 .bf16) (v8 : FVec Ideal S256x256 .bf16) (v12 : FVec Ideal S1x256 .f32)
    (hc : Shape.Concatenates [S256x256, S256x256, S256x256] S768x256 0) (hb : S1x256.Broadcasts S768x256) (k : Fin 3) (o : ℕ)
    (ho : o = 256 * k.val) (hs : S768x256.Slices ![o, 0] S256x256) (r f : Fin 256) (W : Fin 256 → Fin 256 → EReal)
    (B z : Fin 256 → EReal) (hz : ∀ g, P k (ix2 r g) = z g) (h8 : ∀ g o, v8 (ix2 g o) = W g o) (h12 : ∀ o, v12 (ix2 (0 : Fin 1) o) = B o) :
    extractStridedSlice S256x256 ![o, 0] (addf (matmul dot_S768x256_S256x256_S768x256_1_0_0_1_n_n none
      (concatenate S768x256 0 [⟨S256x256, P 0⟩, ⟨S256x256, P 1⟩, ⟨S256x256, P 2⟩] hc) v8 (constant S768x256 .f32 0x00000000#32))
      (broadcastTo S768x256 v12 hb)) hs (ix2 r f) = (∑ g : Fin 256, z g * W g f) + B f := by
  subst ho
  refine (slice2_axis0_apply _ _ _ r f ⟨256 * k.val + r.val, by omega⟩ rfl).trans ?_
  exact congrArg₂ (· + ·) ((mm_apply _ _ _ _ _).trans (Finset.sum_congr rfl fun g _ => congrArg₂ (· * ·)
      ((concatenate_ofFn_apply (t := S768x256) (s₁ := S256x256) 0 P hc rfl 256 rfl _ k (by show (256 * k.val + r.val) / 256 = k.val; omega)
        (ix2 r g) (by show r.val = (256 * k.val + r.val) % 256; omega)
        fun b hb => by match b with | ⟨0, _⟩ => exact absurd rfl hb | ⟨1, _⟩ => rfl).trans (hz g)) (h8 g f)))
    ((broadcastTo_1b_ab_apply _ _ _ _).trans (h12 f))

theorem sc_self {s : Shape} {α : Type} (v : s.Idx → α) (h : s.ShapeCasts s) (i : s.Idx) {y : α} (hy : v i = y) :
    shapeCast s v h i = y := (congrFun (shapeCast_self v h) i).trans hy

section
variable (x : Cert.Spec.Feat) (A1 A2 A3 : Fin 512 → Fin 512 → EReal) (WxT WnT : Fin 256 → Fin 256 → EReal) (bx bn : Fin 256 → EReal)
  (b : Fin 8) (ν : Fin 256 → Fin 512)

theorem pay8_apply (x0 : Vec Ideal S1x512x256 .f32) (hx : ∀ j f, x0 (ix3 (0 : Fin 1) j f) = x b j f) (j : Fin 512) (f : Fin 256) :
    k0_pay8 x0 (ix2 j f) = x b j f :=
  (shapeCast_1ab_ab_apply _ _ j f).trans (hx j f)

theorem pay9_apply (w4 : Vec Ideal S256x256 .bf16) (b5 : Vec Ideal S1x256 .f32) (sr : Vec Ideal S1x256x256 .f32)
    (hxs : ∀ r f, sr (ix3 (0 : Fin 1) r f) = x b (ν r) f) (hW : ∀ f o, w4 (ix2 f o) = WxT f o)
    (hb : ∀ o, b5 (ix2 (0 : Fin 1) o) = bx o) (r o : Fin 256) :
    k0_pay9 w4 b5 sr (ix2 r o) = Cert.Spec.linT x WxT bx b (ν r) o :=
  congrArg₂ (· + ·) ((mm_apply _ _ _ r o).trans (Finset.sum_congr rfl fun f _ =>
    congrArg₂ (· * ·) ((shapeCast_1ab_ab_apply _ _ r f).trans (hxs r f)) (sc_self _ _ _ (hW f o))))
    ((broadcastTo_1b_ab_apply _ _ r o).trans (sc_self _ _ _ (hb o)))

theorem pay11_apply (a : Vec Ideal S256x512 .bf16) (x0 : Vec Ideal S1x512x256 .f32) (A : Fin 512 → Fin 512 → EReal)
    (hA : ∀ r j, a (ix2 r j) = A (ν r) j) (hx : ∀ j f, x0 (ix3 (0 : Fin 1) j f) = x b j f) (r f : Fin 256) :
    k0_pay11 a x0 (ix2 r f) = Cert.Spec.mm A x b (ν r) f :=
  (mm_apply _ _ _ r f).trans (Finset.sum_congr rfl fun j _ => congrArg₂ (· * ·) (sc_self _ _ _ (hA r j)) (pay8_apply x b x0 hx j f))

/-- The rows from what the seven operands hold: by the channel's quarter, the own-rows result or a neighbour mean through the second linear map. -/
theorem pay12_apply (v8 : FVec Ideal S256x256 .bf16) (v12 : FVec Ideal S1x256 .f32) (v18 : FVec Ideal S256x512 .bf16)
    (v21 : FVec Ideal S512x256 .bf16) (v28 : FVec Ideal S256x256 .f32) (v30 : FVec Ideal S256x256 .bf16) (v31 : FVec Ideal S256x256 .f32)
    (h28 : ∀ r o, v28 (ix2 r o) = Cert.Spec.linT x WxT bx b (ν r) o) (h30 : ∀ r f, v30 (ix2 r f) = Cert.Spec.mm A1 x b (ν r) f)
    (h31 : ∀ r f, v31 (ix2 r f) = Cert.Spec.mm A2 x b (ν r) f) (h18 : ∀ r j, v18 (ix2 r j) = A3 (ν r) j)
    (h21 : ∀ j f, v21 (ix2 j f) = x b j f) (h8 : ∀ f o, v8 (ix2 f o) = WnT f o) (h12 : ∀ o, v12 (ix2 (0 : Fin 1) o) = bn o)
    (r : Fin 256) (ch : Fin 1024) :
    k0_pay12 v8 v12 v18 v21 v28 v30 v31 (ix2 r ch) = Cert.Spec.hKer x A1 A2 A3 WxT bx WnT bn b (ν r) ch := by
  refine norm_apply _ _ r (fun ch => ?_) ch
  unfold Cert.Spec.hcat
  by_cases h : ch.val < 256
  · rw [dif_pos h]
    exact (side4 ![_, _, _, _] _ 0 r ⟨ch.val, h⟩ ch (by show ch.val = 256 * 0 + ch.val; omega)).trans (h28 r _)
  rw [dif_neg h]
  by_cases h' : ch.val < 512
  · rw [dif_pos h']
    exact (side4 ![_, _, _, _] _ 1 r ⟨ch.val - 256, by omega⟩ ch (by show ch.val = 256 * 1 + (ch.val - 256); omega)).trans
      (nb_apply ![_, _, _] _ _ _ _ 0 0 rfl slices_S768x256_o0_0_S256x256 r _ WnT bn _ (h30 r) h8 h12)
  rw [dif_neg h']
  by_cases h'' : ch.val < 768
  · rw [dif_pos h'']
    exact (side4 ![_, _, _, _] _ 2 r ⟨ch.val - 512, by omega⟩ ch (by show ch.val = 256 * 2 + (ch.val - 512); omega)).trans
      (nb_apply ![_, _, _] _ _ _ _ 1 256 rfl slices_S768x256_o256_0_S256x256 r _ WnT bn _ (h31 r) h8 h12)
  rw [dif_neg h'']
  exact (side4 ![_, _, _, _] _ 3 r ⟨ch.val - 768, by have := ch.isLt; omega⟩ ch (by show ch.val = 256 * 3 + (ch.val - 768); omega)).trans
    (nb_apply ![_, _, _] _ _ _ _ 2 512 rfl slices_S768x256_o512_0_S256x256 r _ WnT bn _ (fun g =>
      (mm_apply _ v18 v21 r g).trans (Finset.sum_congr rfl fun j _ => congrArg₂ (· * ·) (h18 r j) (h21 j g))) h8 h12)

end

end Cert.KernelIdeal.Val
end
-- ==== Proof.KValRows.lean ====
import proofs.«402726_j40862318854444_3_alg».proof.Proof.KDat
import proofs.«402726_j40862318854444_3_alg».proof.Proof.SpecK
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Val

open Idealize.ShloMosaic Idealize.ShloMosaic.TcCoe Idealize.ShloMosaic.ValueIdx
open Idealize.SL Idealize.SL.Sem
open Cert.KernelIdeal Cert.KernelIdeal.Gen Cert.KernelIdeal.Fr

variable (V : (c : Dev nD) → (b : Ref sig .tc) → Buf (Elt Ideal) ((c : Thread nD τ).loc b)) (c : Dev nD)

abbrev xOf : Cert.Spec.Feat := fun b n f => V c main_arg0 (ix3 b n f)
abbrev matOf (A : Vec Ideal S512x512 .bf16) : Fin 512 → Fin 512 → EReal := fun n j => A (ix2 n j)
abbrev wOf (W : Vec Ideal S256x256 .bf16) : Fin 256 → Fin 256 → EReal := fun f o => W (ix2 f o)
abbrev bOf (B : Vec Ideal S1x256 .f32) : Fin 256 → EReal := fun o => B (ix2 (0 : Fin 1) o)
abbrev hOf : Cert.Spec.Chan :=
  Cert.Spec.hKer (xOf V c) (matOf (V c main_v13)) (matOf (V c main_v27)) (matOf (V c main_v41))
    (wOf (V c main_v43)) (bOf (V c main_v46)) (wOf (V c main_v45)) (bOf (V c main_v47))
abbrev pt (core : Fin 2) (b : Fin 8) : Fin cfg0.N :=
  ⟨core.val * 8 + b.val, by have := core.isLt; have := b.isLt; show _ < 16; omega⟩

/-- An accumulator's step on any array: the old value plus the array's column sums. -/
theorem acc_apply (P : FVec Ideal S256x1024 .f32) (s : Vec Ideal S1x1024 .f32) (ch : Fin 1024) :
    shapeCast S1x1024 (addf s (shapeCast S1x1024 (multiReduction .add [0] S1024 P 0x00000000#32 reduces_S256x1024_S1024 (.inl rfl) rfl)
      shapeCasts_S1024_S1x1024)) shapeCasts_S1x1024_S1x1024 (ix2 (0 : Fin 1) ch) = s (ix2 0 ch) + ∑ r : Fin 256, P (ix2 r ch) := by
  refine (congrFun (shapeCast_self _ _) _).trans (congrArg (s (ix2 0 ch) + ·) ?_)
  refine (shapeCast_a_1a_apply _ _ (0 : Fin 1) ch).trans ?_
  refine (Ideal.multiReduction_add_single P _ _ _ _ (ix1 ch)).trans ?_
  exact Finset.sum_congr rfl fun r _ => congrArg P (funext fun a => by match a with | ⟨0, _⟩ => rfl | ⟨1, _⟩ => rfl)

theorem outRowsAt_apply (t : Fin cfg0.N) (r : Fin 256) (ch : Fin 1024) :
    outRowsAt (F := Ideal) V c t (ix3 (0 : Fin 1) r ch) = rowsAt V c t (ix2 r ch) := by
  unfold outRowsAt outRows k0_pay13
  exact shapeCast_ab_1ab_apply _ _ (0 : Fin 1) r ch

theorem accStep_fst (t : Fin cfg0.N) (sq : Vec Ideal S1x1024 .f32 × Vec Ideal S1x1024 .f32) (ch : Fin 1024) :
    (accStep (F := Ideal) V c t sq).1 (ix2 (0 : Fin 1) ch) = sq.1 (ix2 0 ch) + ∑ r : Fin 256, rowsAt V c t (ix2 r ch) :=
  acc_apply _ _ ch

theorem accStep_snd (t : Fin cfg0.N) (sq : Vec Ideal S1x1024 .f32 × Vec Ideal S1x1024 .f32) (ch : Fin 1024) :
    (accStep (F := Ideal) V c t sq).2 (ix2 (0 : Fin 1) ch)
      = sq.2 (ix2 0 ch) + ∑ r : Fin 256, rowsAt V c t (ix2 r ch) * rowsAt V c t (ix2 r ch) :=
  acc_apply (mulf _ _) _ ch

theorem accZero_apply (ch : Fin 1024) : accZero (F := Ideal) (ix2 (0 : Fin 1) ch) = 0 := by
  unfold accZero k0_pay3
  exact (congrFun (shapeCast_self _ _) _).trans Ideal.ofBits_zero_f32
theorem accZero'_apply (ch : Fin 1024) : accZero' (F := Ideal) (ix2 (0 : Fin 1) ch) = 0 := accZero_apply ch

theorem outAcc_apply (s : Vec Ideal S1x1024 .f32) (ch : Fin 1024) :
    outAcc (F := Ideal) s (ix3 (0 : Fin 1) (0 : Fin 1) ch) = s (ix2 0 ch) :=
  shapeCast_ab_1ab_apply _ _ (0 : Fin 1) (0 : Fin 1) ch
theorem outAcc'_apply (q : Vec Ideal S1x1024 .f32) (ch : Fin 1024) :
    outAcc' (F := Ideal) q (ix3 (0 : Fin 1) (0 : Fin 1) ch) = q (ix2 0 ch) := outAcc_apply q ch

end Cert.KernelIdeal.Val
end
-- ==== Proof.KValRowsBlk.lean ====
import proofs.«402726_j40862318854444_3_alg».proof.Proof.KValRows

noncomputable section

namespace Cert.KernelIdeal.Val

open Idealize.ShloMosaic Idealize.ShloMosaic.TcCoe Idealize.ShloMosaic.ValueIdx
open Idealize.SL Idealize.SL.Sem
open Cert.KernelIdeal Cert.KernelIdeal.Gen Cert.KernelIdeal.Fr

/-- The block indices at core `core` and batch `b`, and where the core's own rows of the batch start. -/
theorem idx_facts : ∀ (core : Fin 2) (b : Fin 8),
    win0_0.index (pt core b) (0 : Fin 3) = b.val ∧ win0_0.index (pt core b) (1 : Fin 3) = 0 ∧ win0_0.index (pt core b) (2 : Fin 3) = 0
    ∧ win0_1.index (pt core b) (0 : Fin 2) = core.val ∧ win0_1.index (pt core b) (1 : Fin 2) = 0
    ∧ win0_2.index (pt core b) (0 : Fin 2) = core.val ∧ win0_2.index (pt core b) (1 : Fin 2) = 0
    ∧ win0_3.index (pt core b) (0 : Fin 2) = core.val ∧ win0_3.index (pt core b) (1 : Fin 2) = 0
    ∧ win0_4.index (pt core b) (0 : Fin 2) = 0 ∧ win0_4.index (pt core b) (1 : Fin 2) = 0
    ∧ win0_5.index (pt core b) (0 : Fin 2) = 0 ∧ win0_5.index (pt core b) (1 : Fin 2) = 0
    ∧ win0_6.index (pt core b) (0 : Fin 2) = 0 ∧ win0_6.index (pt core b) (1 : Fin 2) = 0
    ∧ win0_7.index (pt core b) (0 : Fin 2) = 0 ∧ win0_7.index (pt core b) (1 : Fin 2) = 0
    ∧ k0_off1 (grid0.coords (pt core b)) (0 : Fin 3) = 0 ∧ k0_off1 (grid0.coords (pt core b)) (1 : Fin 3) = 256 * core.val
    ∧ k0_off1 (grid0.coords (pt core b)) (2 : Fin 3) = 0 := by
  decide +kernel

variable (V : (c : Dev nD) → (b : Ref sig .tc) → Buf (Elt Ideal) ((c : Thread nD τ).loc b)) (c : Dev nD) (core : Fin 2) (b : Fin 8)

theorem bx0_apply (j : Fin 512) (f : Fin 256) : bx0 V c (pt core b) (ix3 (0 : Fin 1) j f) = V c main_arg0 (ix3 b j f) := by
  have := idx_facts core b
  refine congrArg (V c main_arg0) (funext fun a => Fin.ext ?_)
  match a with
  | ⟨0, _⟩ => show win0_0.index (pt core b) (0 : Fin 3) * 1 + 1 * 0 = b.val; omega
  | ⟨1, _⟩ => show win0_0.index (pt core b) (1 : Fin 3) * 512 + 1 * j.val = j.val; omega
  | ⟨2, _⟩ => show win0_0.index (pt core b) (2 : Fin 3) * 256 + 1 * f.val = f.val; omega

theorem ba1_apply (r : Fin 256) (j : Fin 512) : ba1 V c (pt core b) (ix2 r j) = V c main_v13 (ix2 (Cert.Spec.half core r) j) := by
  have := idx_facts core b
  refine congrArg (V c main_v13) (funext fun a => Fin.ext ?_)
  match a with
  | ⟨0, _⟩ => show win0_1.index (pt core b) (0 : Fin 2) * 256 + 1 * r.val = core.val * 256 + r.val; omega
  | ⟨1, _⟩ => show win0_1.index (pt core b) (1 : Fin 2) * 512 + 1 * j.val = j.val; omega
theorem ba2_apply (r : Fin 256) (j : Fin 512) : ba2 V c (pt core b) (ix2 r j) = V c main_v27 (ix2 (Cert.Spec.half core r) j) := by
  have := idx_facts core b
  refine congrArg (V c main_v27) (funext fun a => Fin.ext ?_)
  match a with
  | ⟨0, _⟩ => show win0_2.index (pt core b) (0 : Fin 2) * 256 + 1 * r.val = core.val * 256 + r.val; omega
  | ⟨1, _⟩ => show win0_2.index (pt core b) (1 : Fin 2) * 512 + 1 * j.val = j.val; omega
theorem ba3_apply (r : Fin 256) (j : Fin 512) : ba3 V c (pt core b) (ix2 r j) = V c main_v41 (ix2 (Cert.Spec.half core r) j) := by
  have := idx_facts core b
  refine congrArg (V c main_v41) (funext fun a => Fin.ext ?_)
  match a with
  | ⟨0, _⟩ => show win0_3.index (pt core b) (0 : Fin 2) * 256 + 1 * r.val = core.val * 256 + r.val; omega
  | ⟨1, _⟩ => show win0_3.index (pt core b) (1 : Fin 2) * 512 + 1 * j.val = j.val; omega

theorem bw4_apply (f o : Fin 256) : bw4 V c (pt core b) (ix2 f o) = V c main_v43 (ix2 f o) := by
  have := idx_facts core b
  refine congrArg (V c main_v43) (funext fun a => Fin.ext ?_)
  match a with
  | ⟨0, _⟩ => show win0_4.index (pt core b) (0 : Fin 2) * 256 + 1 * f.val = f.val; omega
  | ⟨1, _⟩ => show win0_4.index (pt core b) (1 : Fin 2) * 256 + 1 * o.val = o.val; omega
theorem bb5_apply (o : Fin 256) : bb5 V c (pt core b) (ix2 (0 : Fin 1) o) = V c main_v46 (ix2 (0 : Fin 1) o) := by
  have := idx_facts core b
  refine congrArg (V c main_v46) (funext fun a => Fin.ext ?_)
  match a with
  | ⟨0, _⟩ => show win0_5.index (pt core b) (0 : Fin 2) * 1 + 1 * 0 = 0; omega
  | ⟨1, _⟩ => show win0_5.index (pt core b) (1 : Fin 2) * 256 + 1 * o.val = o.val; omega
theorem bw6_apply (f o : Fin 256) : bw6 V c (pt core b) (ix2 f o) = V c main_v45 (ix2 f o) := by
  have := idx_facts core b
  refine congrArg (V c main_v45) (funext fun a => Fin.ext ?_)
  match a with
  | ⟨0, _⟩ => show win0_6.index (pt core b) (0 : Fin 2) * 256 + 1 * f.val = f.val; omega
  | ⟨1, _⟩ => show win0_6.index (pt core b) (1 : Fin 2) * 256 + 1 * o.val = o.val; omega
theorem bb7_apply (o : Fin 256) : bb7 V c (pt core b) (ix2 (0 : Fin 1) o) = V c main_v47 (ix2 (0 : Fin 1) o) := by
  have := idx_facts core b
  refine congrArg (V c main_v47) (funext fun a => Fin.ext ?_)
  match a with
  | ⟨0, _⟩ => show win0_7.index (pt core b) (0 : Fin 2) * 1 + 1 * 0 = 0; omega
  | ⟨1, _⟩ => show win0_7.index (pt core b) (1 : Fin 2) * 256 + 1 * o.val = o.val; omega

/-- The core's own rows of a batch: row `r` is row `core * 256 + r` of the batch. -/
theorem selfRows_apply (x0 : Vec Ideal S1x512x256 .f32) (r f : Fin 256) :
    selfRows (grid0.coords (pt core b)) x0 (ix3 (0 : Fin 1) r f) = x0 (ix3 (0 : Fin 1) (Cert.Spec.half core r) f) := by
  have := idx_facts core b
  refine congrArg x0 (funext fun a => Fin.ext ?_)
  match a with
  | ⟨0, _⟩ => show k0_off1 (grid0.coords (pt core b)) (0 : Fin 3) + 1 * 0 = 0; omega
  | ⟨1, _⟩ => show k0_off1 (grid0.coords (pt core b)) (1 : Fin 3) + 1 * r.val = core.val * 256 + r.val; omega
  | ⟨2, _⟩ => show k0_off1 (grid0.coords (pt core b)) (2 : Fin 3) + 1 * f.val = f.val; omega

end Cert.KernelIdeal.Val
end
-- ==== Proof.KValRows1.lean ====
import proofs.«402726_j40862318854444_3_alg».proof.Proof.KValRowsPay
import proofs.«402726_j40862318854444_3_alg».proof.Proof.KValRowsBlk

noncomputable section

namespace Cert.KernelIdeal.Val

open Idealize.ShloMosaic Idealize.ShloMosaic.TcCoe Idealize.ShloMosaic.ValueIdx
open Idealize.SL Idealize.SL.Sem
open Cert.KernelIdeal Cert.KernelIdeal.Gen Cert.KernelIdeal.Fr

variable (V : (c : Dev nD) → (b : Ref sig .tc) → Buf (Elt Ideal) ((c : Thread nD τ).loc b)) (c : Dev nD)

/-- At core `core` and batch `b`, row `r` of the point's rows is node `core * 256 + r` of batch `b`. -/
theorem rowsAt_apply (core : Fin 2) (b : Fin 8) (r : Fin 256) (ch : Fin 1024) :
    rowsAt (F := Ideal) V c (pt core b) (ix2 r ch) = hOf V c b (Cert.Spec.half core r) ch := by
  have hx := bx0_apply V c core b
  unfold rowsAt rows
  exact pay12_apply (xOf V c) (matOf (V c main_v13)) (matOf (V c main_v27)) (matOf (V c main_v41)) (wOf (V c main_v43))
    (wOf (V c main_v45)) (bOf (V c main_v46)) (bOf (V c main_v47)) b (Cert.Spec.half core) _ _ _ _ _ _ _
    (pay9_apply _ _ _ b _ _ _ _ (fun r f => (selfRows_apply core b _ r f).trans (hx _ f)) (bw4_apply V c core b) (bb5_apply V c core b))
    (pay11_apply _ b _ _ _ _ (ba1_apply V c core b) hx) (pay11_apply _ b _ _ _ _ (ba2_apply V c core b) hx)
    (fun r j => sc_self _ _ _ (ba3_apply V c core b r j)) (pay8_apply _ b _ hx)
    (fun f o => sc_self _ _ _ (bw6_apply V c core b f o)) (fun o => sc_self _ _ _ (bb7_apply V c core b o)) r ch

end Cert.KernelIdeal.Val
end
-- ==== Proof.KValArr.lean ====
import proofs.«402726_j40862318854444_3_alg».proof.Proof.KValRows
import proofs.«402726_j40862318854444_3_alg».proof.Proof.Spec
import Idealize.ShloMosaic.Lib.Pipeline.Value
import Idealize.ShloMosaic.Lib.ValueIdx
import Mathlib.Algebra.BigOperators.Fin
import Mathlib.Algebra.BigOperators.Group.Finset.Basic

noncomputable section

namespace Cert.KernelIdeal.Val.Arr

open Idealize.ShloMosaic Idealize.ShloMosaic.TcCoe Idealize.SL.Sem
open Idealize.ShloMosaic.Pipeline (Dat)
open Idealize.ShloMosaic.ValueIdx
open Cert.KernelIdeal Cert.KernelIdeal.Gen Cert.KernelIdeal.Fr

variable (V : (c : Dev nD) → (b : Ref sig .tc) → Buf (Elt Ideal) ((c : Thread nD τ).loc b)) (c : Dev nD)

-- Decided over the 2 × 8 points.
theorem idx : ∀ (core : Fin 2) (b : Fin 8),
    (win0_8.index (pt core b) (0 : Fin 3) = b.val ∧ win0_8.index (pt core b) (1 : Fin 3) = core.val ∧ win0_8.index (pt core b) (2 : Fin 3) = 0)
    ∧ (win0_9.index (pt core b) (0 : Fin 3) = core.val ∧ win0_9.index (pt core b) (1 : Fin 3) = 0 ∧ win0_9.index (pt core b) (2 : Fin 3) = 0)
    ∧ win0_10.index (pt core b) (0 : Fin 3) = core.val ∧ win0_10.index (pt core b) (1 : Fin 3) = 0 ∧ win0_10.index (pt core b) (2 : Fin 3) = 0 := by
  decide +kernel

-- An entry's place in the array is, axis by axis, the block index times the block's size plus its place in the block.
theorem emb8 (core : Fin 2) (b : Fin 8) (r : Fin 256) (ch : Fin 1024) :
    ((cfg0.win 8).blk (pt core b)).view.emb (ix3 (0 : Fin 1) r ch) = ix3 b (Cert.Spec.half core r) ch := by
  obtain ⟨⟨e0, e1, e2⟩, -⟩ := idx core b
  funext a; apply Fin.ext
  match a with
  | ⟨0, _⟩ => show win0_8.index (pt core b) (0 : Fin 3) * 1 + 1 * 0 = b.val; omega
  | ⟨1, _⟩ => show win0_8.index (pt core b) (1 : Fin 3) * 256 + 1 * r.val = core.val * 256 + r.val; omega
  | ⟨2, _⟩ => show win0_8.index (pt core b) (2 : Fin 3) * 1024 + 1 * ch.val = ch.val; omega

theorem embS (core : Fin 2) (b : Fin 8) (ch : Fin 1024) :
    ((cfg0.win 9).blk (pt core b)).view.emb (ix3 (0 : Fin 1) (0 : Fin 1) ch) = ix3 core (0 : Fin 1) ch
    ∧ ((cfg0.win 10).blk (pt core b)).view.emb (ix3 (0 : Fin 1) (0 : Fin 1) ch) = ix3 core (0 : Fin 1) ch := by
  obtain ⟨-, ⟨e0, e1, e2⟩, f0, f1, f2⟩ := idx core b
  constructor <;> funext a <;> apply Fin.ext
  · match a with
    | ⟨0, _⟩ => show win0_9.index (pt core b) (0 : Fin 3) * 1 + 1 * 0 = core.val; omega
    | ⟨1, _⟩ => show win0_9.index (pt core b) (1 : Fin 3) * 1 + 1 * 0 = 0; omega
    | ⟨2, _⟩ => show win0_9.index (pt core b) (2 : Fin 3) * 1024 + 1 * ch.val = ch.val; omega
  · match a with
    | ⟨0, _⟩ => show win0_10.index (pt core b) (0 : Fin 3) * 1 + 1 * 0 = core.val; omega
    | ⟨1, _⟩ => show win0_10.index (pt core b) (1 : Fin 3) * 1 + 1 * 0 = 0; omega
    | ⟨2, _⟩ => show win0_10.index (pt core b) (2 : Fin 3) * 1024 + 1 * ch.val = ch.val; omega

-- The rows' array at the end: entry (batch, node, channel) is the node's row at its core's point of that batch.
def G8 : S8x512x1024.Idx → Elt Ideal .bf16 := fun i =>
  rowsAt (F := Ideal) V c ⟨(i 1).val / 256 * 8 + (i 0).val, by
      have h0 : (i 0).val < 8 := (i 0).isLt; have h1 : (i 1).val < 512 := (i 1).isLt; show _ < 16; omega⟩
    (ix2 (⟨(i 1).val % 256, Nat.mod_lt _ (by decide)⟩ : Fin 256) (i 2 : Fin 1024))

theorem G8_half (b : Fin 8) (core : Fin 2) (r : Fin 256) (ch : Fin 1024) :
    G8 V c (ix3 b (Cert.Spec.half core r) ch) = rowsAt V c (pt core b) (ix2 r ch) := by
  have hc := core.isLt; have hr := r.isLt
  refine congrArg₂ (fun t r => rowsAt (F := Ideal) V c t (ix2 r ch)) (Fin.ext ?_) (Fin.ext ?_)
  · show (core.val * 256 + r.val) / 256 * 8 + b.val = core.val * 8 + b.val; omega
  · show (core.val * 256 + r.val) % 256 = r.val; omega

theorem flushed8_eq (t : Fin cfg0.N) :
    (dat0 (F := Ideal) V c).flushed 8 t = ((cfg0.win 8).blk t).view.read (Elt Ideal) (G8 V c) := by
  have ht : t.val < 16 := t.isLt
  obtain ⟨core, b, rfl⟩ : ∃ core b, t = pt core b :=
    ⟨⟨t.val / 8, by omega⟩, ⟨t.val % 8, Nat.mod_lt _ (by decide)⟩, Fin.ext (by show t.val = t.val / 8 * 8 + t.val % 8; omega)⟩
  funext j
  obtain ⟨a, r, ch, rfl⟩ : ∃ (a : Fin 1) (r : Fin 256) (ch : Fin 1024), j = ix3 a r ch := ⟨j 0, j 1, j 2, eq_ix3 j⟩
  obtain rfl := Fin.fin_one_eq_zero a
  show (dat0 (F := Ideal) V c).after 8 (pt core b) (ix3 (0 : Fin 1) r ch) = G8 V c (((cfg0.win 8).blk (pt core b)).view.emb (ix3 (0 : Fin 1) r ch))
  rw [after0_8, outRowsAt_apply, emb8, G8_half]

theorem arr8_apply (b : Fin 8) (core : Fin 2) (r : Fin 256) (ch : Fin 1024) :
    (dat0 (F := Ideal) V c).arrAt 8 cfg0.N (ix3 b (Cert.Spec.half core r) ch) = rowsAt V c (pt core b) (ix2 r ch) :=
  ((dat0 (F := Ideal) V c).arrAt_apply_of_mem 8 (G8 V c) (fun t _ => flushed8_eq V c t) cfg0.N (pt core b) _ (pt core b).isLt
    (flush0_8 _) (by rw [← emb8 core b r ch]; exact View.emb_mem_set _ _)).trans (G8_half V c b core r ch)

-- Point `n`'s addends to the column sums and to the column sums of squares (zero past the grid, never used).
def addS (n : ℕ) (ch : Fin 1024) : EReal :=
  if h : n < cfg0.N then ∑ r : Fin 256, rowsAt (F := Ideal) V c ⟨n, h⟩ (ix2 r ch) else 0
def addQ (n : ℕ) (ch : Fin 1024) : EReal :=
  if h : n < cfg0.N then ∑ r : Fin 256, rowsAt (F := Ideal) V c ⟨n, h⟩ (ix2 r ch) * rowsAt (F := Ideal) V c ⟨n, h⟩ (ix2 r ch) else 0

theorem accAt_congr (n n' : ℕ) (h : n < cfg0.N) (h' : n' < cfg0.N) (e : n = n') : accAt (F := Ideal) V c n h = accAt (F := Ideal) V c n' h' := by
  subst e; rfl

-- After batch `k` of a core's run the accumulators hold the sums of the addends of batches `0 … k`: induction on `k`.
theorem accAt_run (q : ℕ) (ch : Fin 1024) : ∀ (k : ℕ) (hk : k ≤ 7) (h : q * 8 + k < cfg0.N),
    (accAt (F := Ideal) V c (q * 8 + k) h).1 (ix2 (0 : Fin 1) ch) = ∑ s ∈ Finset.range (k + 1), addS V c (q * 8 + s) ch
    ∧ (accAt (F := Ideal) V c (q * 8 + k) h).2 (ix2 (0 : Fin 1) ch) = ∑ s ∈ Finset.range (k + 1), addQ V c (q * 8 + s) ch
  | 0, _, h => by
    rw [accAt_first V c (q * 8 + 0) h (by omega), Finset.sum_range_one, Finset.sum_range_one, addS, addQ, dif_pos h, dif_pos h]
    refine ⟨(accStep_fst V c _ _ ch).trans ?_, (accStep_snd V c _ _ ch).trans ?_⟩
    · show accZero (F := Ideal) (ix2 (0 : Fin 1) ch) + _ = _
      rw [accZero_apply, zero_add]
    · show accZero' (F := Ideal) (ix2 (0 : Fin 1) ch) + _ = _
      rw [accZero'_apply, zero_add]
  | k + 1, hk, h => by
    obtain ⟨ih1, ih2⟩ := accAt_run q ch k (by omega) (by omega)
    rw [accAt_next V c (q * 8 + (k + 1)) h (by omega),
      accAt_congr V c (q * 8 + (k + 1) - 1) (q * 8 + k) (by omega) (by omega) (by omega),
      Finset.sum_range_succ _ (k + 1), Finset.sum_range_succ _ (k + 1), ← ih1, ← ih2, addS, addQ, dif_pos h, dif_pos h]
    exact ⟨accStep_fst V c _ _ ch, accStep_snd V c _ _ ch⟩

-- At the last batch of a core's run they hold the rows (their squares) summed over the core's half and the 8 batches.
theorem acc_last (core : Fin 2) (ch : Fin 1024) (h : core.val * 8 + 7 < cfg0.N) :
    (accAt (F := Ideal) V c (core.val * 8 + 7) h).1 (ix2 (0 : Fin 1) ch) = ∑ b : Fin 8, ∑ r : Fin 256, rowsAt V c (pt core b) (ix2 r ch)
    ∧ (accAt (F := Ideal) V c (core.val * 8 + 7) h).2 (ix2 (0 : Fin 1) ch)
      = ∑ b : Fin 8, ∑ r : Fin 256, rowsAt V c (pt core b) (ix2 r ch) * rowsAt V c (pt core b) (ix2 r ch) := by
  obtain ⟨h1, h2⟩ := accAt_run V c core.val ch 7 le_rfl h
  rw [h1, h2, Finset.sum_range, Finset.sum_range]
  exact ⟨Finset.sum_congr rfl fun b _ => dif_pos (pt core b).isLt, Finset.sum_congr rfl fun b _ => dif_pos (pt core b).isLt⟩

-- The two arrays of partial sums at the end.
def G9 : S2x1x1024.Idx → Elt Ideal .f32 := fun i =>
  ∑ b : Fin 8, ∑ r : Fin 256, rowsAt (F := Ideal) V c (pt (i 0) b) (ix2 r (i 2 : Fin 1024))
def G10 : S2x1x1024.Idx → Elt Ideal .f32 := fun i =>
  ∑ b : Fin 8, ∑ r : Fin 256, rowsAt (F := Ideal) V c (pt (i 0) b) (ix2 r (i 2 : Fin 1024)) * rowsAt (F := Ideal) V c (pt (i 0) b) (ix2 r (i 2 : Fin 1024))

theorem flushedS (t : Fin cfg0.N) (h7 : t.val % 8 = 7) :
    (dat0 (F := Ideal) V c).flushed 9 t = ((cfg0.win 9).blk t).view.read (Elt Ideal) (G9 V c)
    ∧ (dat0 (F := Ideal) V c).flushed 10 t = ((cfg0.win 10).blk t).view.read (Elt Ideal) (G10 V c) := by
  obtain ⟨core, rfl⟩ : ∃ core : Fin 2, t = pt core 7 :=
    ⟨⟨t.val / 8, by have : t.val < 16 := t.isLt; omega⟩, Fin.ext (by show t.val = t.val / 8 * 8 + 7; omega)⟩
  constructor
  all_goals
    funext j
    obtain ⟨a, a', ch, rfl⟩ : ∃ (a a' : Fin 1) (ch : Fin 1024), j = ix3 a a' ch := ⟨j 0, j 1, j 2, eq_ix3 j⟩
    obtain rfl := Fin.fin_one_eq_zero a
    obtain rfl := Fin.fin_one_eq_zero a'
  · show (dat0 (F := Ideal) V c).after 9 (pt core 7) (ix3 (0 : Fin 1) (0 : Fin 1) ch) = G9 V c (((cfg0.win 9).blk (pt core 7)).view.emb (ix3 (0 : Fin 1) (0 : Fin 1) ch))
    rw [after0_9, outAcc_apply, (embS core 7 ch).1]
    exact (acc_last V c core ch _).1
  · show (dat0 (F := Ideal) V c).after 10 (pt core 7) (ix3 (0 : Fin 1) (0 : Fin 1) ch) = G10 V c (((cfg0.win 10).blk (pt core 7)).view.emb (ix3 (0 : Fin 1) (0 : Fin 1) ch))
    rw [after0_10, outAcc'_apply, (embS core 7 ch).2]
    exact (acc_last V c core ch _).2

theorem arr9_apply (core : Fin 2) (ch : Fin 1024) :
    (dat0 (F := Ideal) V c).arrAt 9 cfg0.N (ix3 core (0 : Fin 1) ch) = (∑ b : Fin 8, ∑ r : Fin 256, rowsAt V c (pt core b) (ix2 r ch) : EReal) :=
  (dat0 (F := Ideal) V c).arrAt_apply_of_mem 9 (G9 V c) (fun t hf => (flushedS V c t ((flush0_9 t).mp hf)).1) cfg0.N (pt core 7) _ (pt core 7).isLt
    ((flush0_9 _).mpr (by show (core.val * 8 + 7) % 8 = 7; omega)) (by rw [← (embS core 7 ch).1]; exact View.emb_mem_set _ _)

theorem arr10_apply (core : Fin 2) (ch : Fin 1024) :
    (dat0 (F := Ideal) V c).arrAt 10 cfg0.N (ix3 core (0 : Fin 1) ch) = (∑ b : Fin 8, ∑ r : Fin 256, rowsAt V c (pt core b) (ix2 r ch) * rowsAt V c (pt core b) (ix2 r ch) : EReal) :=
  (dat0 (F := Ideal) V c).arrAt_apply_of_mem 10 (G10 V c) (fun t hf => (flushedS V c t ((flush0_10 t).mp hf)).2) cfg0.N (pt core 7) _ (pt core 7).isLt
    ((flush0_10 _).mpr (by show (core.val * 8 + 7) % 8 = 7; omega)) (by rw [← (embS core 7 ch).2]; exact View.emb_mem_set _ _)

end Cert.KernelIdeal.Val.Arr

end
-- ==== Proof.KHost0Lib.lean ====
import Idealize.ShloMosaic.PureOps.Ideal
import Idealize.ShloMosaic.PureOps.Reduce
import Idealize.ShloMosaic.Lib.ValueIdx
import Idealize.ShloMosaic.Lib.IndicatorCount
import Idealize.ShloMosaic.Lib.StableHlo.Predicate

namespace Cert.KernelIdeal.Val.Host0

open Idealize.ShloMosaic Idealize.ShloMosaic.ValueIdx

/-- The signed range [0, 512) gives the same unsigned bound. -/
theorem toNat_lt_of_inRange (w : BitVec 32) (h0 : 0 ≤ w.toInt) (h1 : w.toInt < 512) : w.toNat < 512 := by
  have hl := w.isLt
  rw [BitVec.toInt_eq_toNat_cond] at h0 h1
  split_ifs at h0 h1 <;> omega

/-- With both operand pairs swapped this is the library's clamp of a word already in range. -/
theorem clamp_id (w : BitVec 32) (h0 : 0 ≤ w.toInt) (h1 : w.toInt < 512) :
    IntOp.minsi 511#32 (IntOp.maxsi 0#32 w) = w := by
  rw [Std.Commutative.comm (op := IntOp.minsi), Std.Commutative.comm (op := IntOp.maxsi)]
  exact StableHlo.Predicate.clamp_eval w 511#32 (by decide) (Nat.le_of_lt_succ (toNat_lt_of_inRange w h0 h1))

/-- Both sides say that the word's unsigned value is `j`. -/
theorem word_eq_iff (w : BitVec 32) (h0 : 0 ≤ w.toInt) (h1 : w.toInt < 512) (j : Fin 512) :
    w = BitVec.ofNat 32 j.val ↔ (⟨w.toNat % 512, Nat.mod_lt _ (by decide)⟩ : Fin 512) = j := by
  have hn := toNat_lt_of_inRange w h0 h1
  have hj := j.isLt
  constructor
  · intro e
    apply Fin.ext
    show w.toNat % 512 = j.val
    rw [e, BitVec.toNat_ofNat]
    omega
  · intro e
    have e' : w.toNat % 512 = j.val := congrArg Fin.val e
    apply BitVec.eq_of_toNat_eq
    rw [BitVec.toNat_ofNat]
    omega

/-- A sum of 0/1 words along the middle axis is the number of ones there; below 2^31 it converts to a float exactly. -/
theorem sitofp_reduce_count_mid {n k m : Nat} (hk : k < 2 ^ 31) (mask : IVec ⟨3, ![n, k, m]⟩ 1) (hw : 1 < 32)
    (h : (⟨3, ![n, k, m]⟩ : Shape).ReducesTo [1] ⟨2, ![n, m]⟩) {u : Shape} (hu : 0 < u.numel) (p : Fin n) (q : Fin m) :
    FloatOps.sitofp (F := Ideal) .f32 (Host.reduce IntOp.addi (extui 32 mask hw) (constantI u 32 0#32) h hu (ix2 p q))
      = (((Finset.univ.filter fun r : Fin k => mask (ix3 p r q) = 1#1).card : ℝ) : EReal) := by
  have hr : (⟨3, ![n, k, m]⟩ : Shape).Reduces [1] ⟨2, ![n, m]⟩ := ⟨h.1, Nat.two_pos, h.2⟩
  have e : extui 32 mask hw ∘ hr.lift (ix2 p q)
      = fun r : Fin k => (mask (ix3 p r q)).setWidth 32 :=
    funext fun r => congrArg (fun i => (mask i).setWidth 32) (funext fun c => Fin.ext (by fin_cases c <;> rfl))
  rw [Host.reduce_eq_fold_single _ _ _ h hr, e]
  show (((Finset.univ.fold IntOp.addi 0#32 fun r : Fin k => (mask (ix3 p r q)).setWidth 32).toInt : ℝ) : EReal) = _
  rw [IndicatorCount.fold_addi_setWidth_eq_card, StableHlo.Predicate.toInt_ofNat_small _ (by
    have := Finset.card_le_univ (Finset.univ.filter fun r : Fin k => mask (ix3 p r q) = 1#1)
    rw [Fintype.card_fin] at this
    omega), Int.cast_natCast]

end Cert.KernelIdeal.Val.Host0
-- ==== Proof.KValHost0.lean ====
import proofs.«402726_j40862318854444_3_alg».proof.Proof.KFold
import proofs.«402726_j40862318854444_3_alg».proof.Proof.SpecK
import proofs.«402726_j40862318854444_3_alg».proof.Proof.KHost0Lib
import proofs.«402726_j40862318854444_3_alg».proof.Proof.Gen.KernelIdeal.Regions
import Idealize.ShloMosaic.Lib.StableHlo.Run
import Idealize.ShloMosaic.Lib.StableHlo.Predicate
import Idealize.ShloMosaic.Lib.ValueIdx
import Idealize.ShloMosaic.Lib.ValueLayout
import Idealize.ShloMosaic.Lib.IdealHost
import Idealize.ShloMosaic.Lib.Pipeline.Value

noncomputable section

namespace Cert.KernelIdeal.Val.Host0

open Idealize.ShloMosaic Idealize.ShloMosaic.TcCoe
open Idealize.SL Idealize.SL.Sem
open Cert.KernelIdeal Cert.KernelIdeal.Gen Cert.KernelIdeal.Fr
open Idealize.ShloMosaic.ValueIdx

variable (m : (ℓ : Loc nD τ sig) → Buf (Elt Ideal) ℓ) (c : Dev nD)

/-- The list with each word moved into [0, 511]. -/
abbrev clipOf (a : IVec S16384 32) : IVec S16384 32 := fun i => IntOp.minsi 511#32 (IntOp.maxsi 0#32 (a i))

/-- Bit (n, k, j): whether entry `k` of node `n` is the word of `j`. -/
abbrev maskOf (v : IVec S16384 32) : IVec S512x32x512 1 :=
  cmpi .eq
    (broadcastInDim S512x32x512 ![0, 1, 2] bcast_S512x32x1_S512x32x512_0_1_2
      (broadcastInDim S512x32x1 ![0, 1] bcast_S512x32_S512x32x1_0_1 (shapeCast S512x32 v shapeCasts_S16384_S512x32)))
    (broadcastInDim S512x32x512 ![0, 1, 2] bcast_S1x1x512_S512x32x512_0_1_2
      (broadcastInDim S1x1x512 ![2] bcast_S512_S1x1x512_2 (iotaInDim S512 32 0)))

/-- Per (n, j), the number of set bits over `k`, as a float, scaled by 1/32. -/
abbrev adjOf (v : IVec S16384 32) : FVec Ideal S512x512 .bf16 :=
  truncf .bf16
    (mulf (sitofp .f32 (Host.reduce IntOp.addi (extui 32 (maskOf v) natLt_1_32) (constantI S_ 32 0#32) reducesTo_S512x32x512_S512x512_d1 h_S_))
      (broadcastInDim S512x512 ![] bcast_S_S512x512 (constant (F := Ideal) S_ .f32 0x3D000000#32)))
    bitsLt_bf16_f32

theorem maskOf_apply (v : IVec S16384 32) (n : Fin 512) (k : Fin 32) (j : Fin 512) :
    maskOf v (ix3 n k j) = IntOp.cmpi .eq (v (ix1 (Cert.Spec.slot n k))) (BitVec.ofNat 32 j.val) := by
  show IntOp.cmpi .eq (broadcastInDim _ _ _ _ _) (broadcastInDim _ _ _ _ _) = _
  rw [broadcastInDim_apply _ _ _ (ix3 n k j) (ix3 n k (0 : Fin 1)) fun a => by fin_cases a <;> rfl,
    broadcastInDim_apply _ _ _ (ix3 n k (0 : Fin 1)) (ix2 n k) fun a => by fin_cases a <;> rfl,
    shapeCast_apply _ _ (ix2 n k) (ix1 (Cert.Spec.slot n k)) (by rw [Shape.rowMajor_val_one, Shape.rowMajor_val_two]; rfl),
    broadcastInDim_apply _ _ _ (ix3 n k j) (ix3 (0 : Fin 1) (0 : Fin 1) j) fun a => by fin_cases a <;> rfl,
    broadcastInDim_apply _ _ _ (ix3 (0 : Fin 1) (0 : Fin 1) j) (ix1 j) fun a => by fin_cases a; rfl]
  rfl

/-- On words of [0, 512) the clamp is the identity and a bit is set exactly when the entry's row is `j`: the count is `Spec.cnt`. -/
theorem adj_apply (A : FVec Ideal S512x512 .bf16) (a : IVec S16384 32) (e : A = adjOf (clipOf a))
    (hr : Cert.Spec.InRange (fun s => a (ix1 s))) (n j : Fin 512) : A (ix2 n j) = Cert.Spec.adj (fun s => a (ix1 s)) n j := by
  subst e
  unfold adjOf
  rw [truncf_apply, mulf_apply, sitofp_apply, sitofp_reduce_count_mid (by decide), broadcastInDim_scalar_apply]
  refine congrArg (fun s : Finset (Fin 32) => ((s.card : ℝ) : EReal) * Cert.Spec.cInv32) (Finset.filter_congr fun k _ => ?_)
  obtain ⟨h0, h1⟩ := hr (Cert.Spec.slot n k)
  rw [maskOf_apply, StableHlo.Predicate.cmpi_eq_iff]
  show IntOp.minsi 511#32 (IntOp.maxsi 0#32 (a (ix1 (Cert.Spec.slot n k)))) = _ ↔ _
  rw [clamp_id _ h0 h1]
  exact word_eq_iff _ h0 h1 j

section Stretches

variable (Vv : Valuation τ sig (Elt Ideal))

theorem A_v0 : @Eq (IVec S16384 32) (StableHlo.after hostOps0_1 (StableHlo.after hostOps0 Vv) (Proc.devRef .tc main_v0))
    (clipOf (Vv main_arg1)) := by
  after_results; rfl
theorem A_v13 : @Eq (FVec Ideal S512x512 .bf16) (StableHlo.after hostOps0_2 Vv (Proc.devRef .tc main_v13)) (adjOf (Vv main_v0)) := by
  after_results; rfl
theorem A_v14 : @Eq (IVec S16384 32) (StableHlo.after hostOps0_3 (StableHlo.after hostOps0_2 Vv) (Proc.devRef .tc main_v14))
    (clipOf (Vv main_arg2)) := by
  after_results; rfl
theorem A_v27 : @Eq (FVec Ideal S512x512 .bf16) (StableHlo.after hostOps0_4 Vv (Proc.devRef .tc main_v27)) (adjOf (Vv main_v14)) := by
  after_results; rfl
theorem A_v28 : @Eq (IVec S16384 32) (StableHlo.after hostOps0_5 (StableHlo.after hostOps0_4 Vv) (Proc.devRef .tc main_v28))
    (clipOf (Vv main_arg3)) := by
  after_results; rfl
theorem A_v41 : @Eq (FVec Ideal S512x512 .bf16) (StableHlo.after hostOps0_6 Vv (Proc.devRef .tc main_v41)) (adjOf (Vv main_v28)) := by
  after_results; rfl
theorem A_v43 (f o : Fin 256) : @Eq EReal ((StableHlo.after hostOps0_6 Vv (Proc.devRef .tc main_v43) : FVec Ideal S256x256 .bf16) (ix2 f o))
    ((Vv main_arg4 : FVec Ideal S256x256 .f32) (ix2 o f)) := by
  after_results; exact transpose_ix2_apply _ _ f o
theorem A_v45 (f o : Fin 256) : @Eq EReal ((StableHlo.after hostOps0_6 Vv (Proc.devRef .tc main_v45) : FVec Ideal S256x256 .bf16) (ix2 f o))
    ((Vv main_arg6 : FVec Ideal S256x256 .f32) (ix2 o f)) := by
  after_results; exact transpose_ix2_apply _ _ f o
theorem A_v46 (o : Fin 256) : @Eq EReal ((StableHlo.after hostOps0_6 Vv (Proc.devRef .tc main_v46) : FVec Ideal S1x256 .f32) (ix2 (0 : Fin 1) o))
    ((Vv main_arg5 : FVec Ideal S256 .f32) (ix1 o)) := by
  after_results; exact shapeCast_a_1a_apply _ _ 0 o
theorem A_v47 (o : Fin 256) : @Eq EReal ((StableHlo.after hostOps0_6 Vv (Proc.devRef .tc main_v47) : FVec Ideal S1x256 .f32) (ix2 (0 : Fin 1) o))
    ((Vv main_arg7 : FVec Ideal S256 .f32) (ix1 o)) := by
  after_results; exact shapeCast_a_1a_apply _ _ 0 o

end Stretches

/-- What none of the seven stretches writes is, after them, as it was before. -/
theorem kept (r : Ref sig .tc) (h : r ∉ hostOps0_W ∧ r ∉ hostOps0_1_W ∧ r ∉ hostOps0_2_W ∧ r ∉ hostOps0_3_W ∧ r ∉ hostOps0_4_W
      ∧ r ∉ hostOps0_5_W ∧ r ∉ hostOps0_6_W) :
    W2 (F := Ideal) m c r = W0 m c r ∧ W4 (F := Ideal) m c r = W0 m c r ∧ W6 (F := Ideal) m c r = W0 m c r
      ∧ W7 (F := Ideal) m c r = W0 m c r := by
  obtain ⟨h1, h2, h3, h4, h5, h6, h7⟩ := h
  have e2 := (Gen.V2_of m c r h2).trans (Gen.V1_of m c r h1)
  have e4 := (Gen.V4_of m c r h4).trans ((Gen.V3_of m c r h3).trans e2)
  have e6 := (Gen.V6_of m c r h6).trans ((Gen.V5_of m c r h5).trans e4)
  exact ⟨e2, e4, e6, (Gen.V7_of m c r h7).trans e6⟩

theorem V7_arg0 : Fr.V7 (F := Ideal) m c main_arg0 = m ((c : Thread nD τ).loc main_arg0) :=
  (kept m c main_arg0 (by decide)).2.2.2

theorem V7_adj1 (h1 : Cert.Spec.InRange (fun j => m ((c : Thread nD τ).loc main_arg1) (ix1 j))) (n j : Fin 512) :
    Fr.V7 (F := Ideal) m c main_v13 (ix2 n j) = Cert.Spec.adj (fun j => m ((c : Thread nD τ).loc main_arg1) (ix1 j)) n j :=
  adj_apply _ _ (((Gen.V7_of m c main_v13 (by decide)).trans <| (Gen.V6_of m c main_v13 (by decide)).trans <|
    (Gen.V5_of m c main_v13 (by decide)).trans (Gen.V4_of m c main_v13 (by decide))).trans <|
      (A_v13 (W2 m c)).trans (congrArg adjOf (A_v0 (W0 m c)))) h1 n j
theorem V7_adj2 (h2 : Cert.Spec.InRange (fun j => m ((c : Thread nD τ).loc main_arg2) (ix1 j))) (n j : Fin 512) :
    Fr.V7 (F := Ideal) m c main_v27 (ix2 n j) = Cert.Spec.adj (fun j => m ((c : Thread nD τ).loc main_arg2) (ix1 j)) n j :=
  adj_apply _ _ (((Gen.V7_of m c main_v27 (by decide)).trans (Gen.V6_of m c main_v27 (by decide))).trans <|
    (A_v27 (W4 m c)).trans (congrArg adjOf ((A_v14 (W2 m c)).trans (congrArg clipOf (kept m c main_arg2 (by decide)).1)))) h2 n j
theorem V7_adj3 (h3 : Cert.Spec.InRange (fun j => m ((c : Thread nD τ).loc main_arg3) (ix1 j))) (n j : Fin 512) :
    Fr.V7 (F := Ideal) m c main_v41 (ix2 n j) = Cert.Spec.adj (fun j => m ((c : Thread nD τ).loc main_arg3) (ix1 j)) n j :=
  adj_apply _ _ ((A_v41 (W6 m c)).trans (congrArg adjOf ((A_v28 (W4 m c)).trans
    (congrArg clipOf (kept m c main_arg3 (by decide)).2.1)))) h3 n j

theorem V7_wx (f o : Fin 256) :
    Fr.V7 (F := Ideal) m c main_v43 (ix2 f o) = m ((c : Thread nD τ).loc main_arg4) (ix2 o f) :=
  (A_v43 (W6 m c) f o).trans (congrFun (kept m c main_arg4 (by decide)).2.2.1 (ix2 o f))
theorem V7_wn (f o : Fin 256) :
    Fr.V7 (F := Ideal) m c main_v45 (ix2 f o) = m ((c : Thread nD τ).loc main_arg6) (ix2 o f) :=
  (A_v45 (W6 m c) f o).trans (congrFun (kept m c main_arg6 (by decide)).2.2.1 (ix2 o f))

theorem V7_bx (o : Fin 256) :
    Fr.V7 (F := Ideal) m c main_v46 (ix2 (0 : Fin 1) o) = m ((c : Thread nD τ).loc main_arg5) (ix1 o) :=
  (A_v46 (W6 m c) o).trans (congrFun (kept m c main_arg5 (by decide)).2.2.1 (ix1 o))
theorem V7_bn (o : Fin 256) :
    Fr.V7 (F := Ideal) m c main_v47 (ix2 (0 : Fin 1) o) = m ((c : Thread nD τ).loc main_arg7) (ix1 o) :=
  (A_v47 (W6 m c) o).trans (congrFun (kept m c main_arg7 (by decide)).2.2.1 (ix1 o))

end Cert.KernelIdeal.Val.Host0

end
-- ==== Proof.KValTail.lean ====
import proofs.«402726_j40862318854444_3_alg».proof.Proof.KFold
import proofs.«402726_j40862318854444_3_alg».proof.Proof.SpecK
import proofs.«402726_j40862318854444_3_alg».proof.Proof.Gen.KernelIdeal.Regions
import Idealize.ShloMosaic.Lib.IdealHost
import Idealize.ShloMosaic.Lib.Pipeline.Value
import Idealize.ShloMosaic.Lib.ValueLayout

noncomputable section

namespace Cert.KernelIdeal.Val.Tail

open Idealize.ShloMosaic Idealize.ShloMosaic.TcCoe Idealize.ShloMosaic.ValueIdx
open Idealize.SL Idealize.SL.Sem
open Idealize.ShloMosaic.Pipeline (Dat)
open Cert.KernelIdeal Cert.KernelIdeal.Gen Cert.KernelIdeal.Fr

def meanV (P : Vec Ideal S2x1x1024 .f32) : FVec Ideal S1024 .f32 :=
  Host.divf (F := Ideal)
    (Host.reduceAdd (F := Ideal) (fun i => shapeCast S2x1024 P shapeCasts_S2x1x1024_S2x1024 i)
      (constant (F := Ideal) S_ .f32 0x00000000#32) reducesTo_S2x1024_S1024_d0 h_S_)
    (broadcastInDim S1024 ![] bcast_S_S1024 (constant (F := Ideal) S_ .f32 0x45800000#32))

def scaleV (S Q : Vec Ideal S2x1x1024 .f32) (g : Vec Ideal S1024 .f32) : FVec Ideal S1024 .f32 :=
  mulf g (Host.rsqrt (F := Ideal) (addf
    (maximumf (subf (meanV Q) (mulf (meanV S) (meanV S)))
      (broadcastInDim S1024 ![] bcast_S_S1024 (constant (F := Ideal) S_ .f32 0x00000000#32)))
    (broadcastInDim S1024 ![] bcast_S_S1024 (constant (F := Ideal) S_ .f32 0x3727C5AC#32))))

def shiftV (S Q : Vec Ideal S2x1x1024 .f32) (g b : Vec Ideal S1024 .f32) : FVec Ideal S1024 .f32 :=
  subf b (mulf (meanV S) (scaleV S Q g))

theorem meanV_apply (P : Vec Ideal S2x1x1024 .f32) (ch : Fin 1024) :
    meanV P (ix1 ch) = Ideal.div (∑ k : Fin 2, P (ix3 k (0 : Fin 1) ch)) Cert.Spec.c4096 := by
  have h : S2x1024.Reduces [0] S1024 := by decide
  show Ideal.div (Ideal.hostReduceAdd reducesTo_S2x1024_S1024_d0 (fun i => shapeCast S2x1024 P shapeCasts_S2x1x1024_S2x1024 i)
      (Ideal.ofBits .f32 0x00000000#32) (ix1 ch))
    (broadcastInDim S1024 ![] bcast_S_S1024 (constant (F := Ideal) S_ .f32 0x45800000#32) (ix1 ch)) = _
  rw [Ideal.hostReduceAdd_single reducesTo_S2x1024_S1024_d0 h, broadcastInDim_scalar_apply, Ideal.ofBits_zero_f32, zero_add]
  show Ideal.div (∑ k : Fin 2, shapeCast S2x1024 P shapeCasts_S2x1x1024_S2x1024 (h.lift (ix1 ch) k)) Cert.Spec.c4096 = _
  congr 1
  refine Finset.sum_congr rfl fun k _ => ?_
  refine shapeCast_apply P _ _ (ix3 k (0 : Fin 1) ch) ?_
  rw [Shape.rowMajor_val_three, Shape.rowMajor_val_two]
  show (k.val * 1 + 0) * 1024 + ch.val = k.val * 1024 + ch.val
  omega

theorem scaleV_apply (S Q : Vec Ideal S2x1x1024 .f32) (g : Vec Ideal S1024 .f32) (ch : Fin 1024) :
    scaleV S Q g (ix1 ch)
      = Cert.Spec.scaleOf (fun core ch => S (ix3 core (0 : Fin 1) ch)) (fun core ch => Q (ix3 core (0 : Fin 1) ch)) (fun ch => g (ix1 ch)) ch := by
  show g (ix1 ch) * Ideal.rsqrt (max (meanV Q (ix1 ch) - meanV S (ix1 ch) * meanV S (ix1 ch))
      (broadcastInDim S1024 ![] bcast_S_S1024 (constant (F := Ideal) S_ .f32 0x00000000#32) (ix1 ch))
    + broadcastInDim S1024 ![] bcast_S_S1024 (constant (F := Ideal) S_ .f32 0x3727C5AC#32) (ix1 ch)) = _
  rw [meanV_apply, meanV_apply, broadcastInDim_scalar_apply, broadcastInDim_scalar_apply]
  show g (ix1 ch) * Ideal.rsqrt (max _ (Ideal.ofBits .f32 0x00000000#32) + Cert.Spec.eps5) = _
  rw [Ideal.ofBits_zero_f32]
  rfl

theorem shiftV_apply (S Q : Vec Ideal S2x1x1024 .f32) (g b : Vec Ideal S1024 .f32) (ch : Fin 1024) :
    shiftV S Q g b (ix1 ch)
      = Cert.Spec.shiftOf (fun core ch => S (ix3 core (0 : Fin 1) ch)) (fun core ch => Q (ix3 core (0 : Fin 1) ch)) (fun ch => g (ix1 ch)) (fun ch => b (ix1 ch)) ch := by
  show b (ix1 ch) - meanV S (ix1 ch) * scaleV S Q g (ix1 ch) = _
  rw [meanV_apply, scaleV_apply]
  rfl

theorem cast_apply (v : Vec Ideal S1024 .f32) (ch : Fin 1024) :
    shapeCast S1x1x1024 v shapeCasts_S1024_S1x1x1024 (ix3 (0 : Fin 1) (0 : Fin 1) ch) = v (ix1 ch) := by
  refine shapeCast_apply v _ _ (ix1 ch) ?_
  rw [Shape.rowMajor_val_three, Shape.rowMajor_val_one]
  show ch.val = (0 * 1 + 0) * 1024 + ch.val
  omega

variable (m : (ℓ : Loc nD τ sig) → Buf (Elt Ideal) ℓ) (c : Dev nD)

-- `γ` and `β` are still the arguments after the first region: nothing earlier writes them.
theorem V8_args : Fr.V8 (F := Ideal) m c main_arg8 = m ((c : Thread nD τ).loc main_arg8)
    ∧ Fr.V8 (F := Ideal) m c main_arg9 = m ((c : Thread nD τ).loc main_arg9) := by
  constructor <;> exact (W8_of_ne m c _ (by decide)).trans <| (Gen.V7_of m c _ (by decide)).trans <|
    (Gen.V6_of m c _ (by decide)).trans <| (Gen.V5_of m c _ (by decide)).trans <| (Gen.V4_of m c _ (by decide)).trans <|
    (Gen.V3_of m c _ (by decide)).trans <| (Gen.V2_of m c _ (by decide)).trans <| (Gen.V1_of m c _ (by decide)).trans rfl

theorem V9_h : Fr.V9 (F := Ideal) m c main_v48_0 = Fr.V8 m c main_v48_0 :=
  StableHlo.after_of_writes_sub hostOps1 _ hostOps1_writes (by decide)

-- The scale the second region is entered from, channel by channel: the specification's, of the two pairs of partial sums and `γ` as launched.
theorem V9_scale (ch : Fin 1024) :
    Fr.V9 (F := Ideal) m c main_v67 (ix3 (0 : Fin 1) (0 : Fin 1) ch)
      = Cert.Spec.scaleOf (fun core ch => Fr.V8 m c main_v48_1 (ix3 core (0 : Fin 1) ch))
          (fun core ch => Fr.V8 m c main_v48_2 (ix3 core (0 : Fin 1) ch))
          (fun ch => m ((c : Thread nD τ).loc main_arg8) (ix1 ch)) ch := by
  have e : (Fr.V9 (F := Ideal) m c main_v67 : S1x1x1024.Idx → EReal)
      = fun i => shapeCast S1x1x1024 (scaleV (Fr.V8 m c main_v48_1) (Fr.V8 m c main_v48_2) (Fr.V8 m c main_arg8)) shapeCasts_S1024_S1x1x1024 i := by
    dsimp only [Fr.V9, Fr.W9]
    after_results_simp
    rfl
  refine (congrFun e _).trans ((cast_apply _ ch).trans ((scaleV_apply _ _ _ ch).trans ?_))
  rw [(V8_args m c).1]

-- The shift likewise, of `γ` and `β` as launched.
theorem V9_shift (ch : Fin 1024) :
    Fr.V9 (F := Ideal) m c main_v68 (ix3 (0 : Fin 1) (0 : Fin 1) ch)
      = Cert.Spec.shiftOf (fun core ch => Fr.V8 m c main_v48_1 (ix3 core (0 : Fin 1) ch))
          (fun core ch => Fr.V8 m c main_v48_2 (ix3 core (0 : Fin 1) ch))
          (fun ch => m ((c : Thread nD τ).loc main_arg8) (ix1 ch))
          (fun ch => m ((c : Thread nD τ).loc main_arg9) (ix1 ch)) ch := by
  have e : (Fr.V9 (F := Ideal) m c main_v68 : S1x1x1024.Idx → EReal)
      = fun i => shapeCast S1x1x1024 (shiftV (Fr.V8 m c main_v48_1) (Fr.V8 m c main_v48_2) (Fr.V8 m c main_arg8) (Fr.V8 m c main_arg9)) shapeCasts_S1024_S1x1x1024 i := by
    dsimp only [Fr.V9, Fr.W9]
    after_results_simp
    rfl
  refine (congrFun e _).trans ((cast_apply _ ch).trans ((shiftV_apply _ _ _ _ ch).trans ?_))
  rw [(V8_args m c).1, (V8_args m c).2]

variable (V : (c : Dev nD) → (b : Ref sig .tc) → Buf (Elt Ideal) ((c : Thread nD τ).loc b))

abbrev hArr (c : Dev nD) : Vec Ideal S8x512x1024 .bf16 := V c main_v48_0
abbrev scArr (c : Dev nD) : Vec Ideal S1x1x1024 .f32 := V c main_v67
abbrev shArr (c : Dev nD) : Vec Ideal S1x1x1024 .f32 := V c main_v68

def affineArr (c : Dev nD) : Vec Ideal S8x512x1024 .f32 := fun i =>
  hArr V c i * scArr V c (ix3 (0 : Fin 1) (0 : Fin 1) (i 2 : Fin 1024)) + shArr V c (ix3 (0 : Fin 1) (0 : Fin 1) (i 2 : Fin 1024))

theorem outAffine_apply (h : Vec Ideal S8x64x1024 .bf16) (sc sh : Vec Ideal S1x1x1024 .f32) (b : Fin 8) (r : Fin 64) (ch : Fin 1024) :
    outAffine h sc sh (ix3 b r ch) = h (ix3 b r ch) * sc (ix3 (0 : Fin 1) (0 : Fin 1) ch) + sh (ix3 (0 : Fin 1) (0 : Fin 1) ch) := by
  unfold outAffine k1_pay1
  show shapeCast S8x64x1024 h _ (ix3 b r ch) * broadcastTo S8x64x1024 (shapeCast S1x1x1024 sc _) _ (ix3 b r ch)
    + broadcastTo S8x64x1024 (shapeCast S1x1x1024 sh _) _ (ix3 b r ch) = _
  rw [shapeCast_self, shapeCast_self, shapeCast_self]
  have hb : ∀ v : Vec Ideal S1x1x1024 .f32, broadcastTo S8x64x1024 v broadcasts_S1x1x1024_S8x64x1024 (ix3 b r ch) = v (ix3 (0 : Fin 1) (0 : Fin 1) ch) := fun v => by
    refine broadcastTo_apply v _ _ (ix3 (0 : Fin 1) (0 : Fin 1) ch) fun a => ?_
    match a with
    | ⟨0, _⟩ => rfl
    | ⟨1, _⟩ => rfl
    | ⟨2, _⟩ => rfl
  rw [hb, hb]

-- Decided over the 8 points.
theorem idx_facts : ∀ t : Fin cfg1.N, (∀ a, win1_1.index t a = 0) ∧ (∀ a, win1_2.index t a = 0) ∧ (∀ a, win1_0.index t a = win1_3.index t a)
    ∧ win1_3.index t (0 : Fin 3) = 0 ∧ win1_3.index t (1 : Fin 3) = t.val ∧ win1_3.index t (2 : Fin 3) = 0 :=
  (by decide +kernel : ∀ t : Fin grid1.N, _)

-- Each entry comes from the same entry of the rows and from its channel's scale and shift.
theorem flushed_eq (c : Dev nD) (t : Fin cfg1.N) :
    (dat1 V c).flushed 3 t = ((cfg1.win 3).blk t).view.read (Elt Ideal) (affineArr V c) := by
  show (cfg1.win 3).cut (grid1.coords t) ((dat1 V c).after 3 t) = _
  rw [after1_3]
  obtain ⟨z1, z2, z03, -, -, e32⟩ := idx_facts t
  funext j
  obtain ⟨b, r, ch, rfl⟩ : ∃ (b : Fin 8) (r : Fin 64) (ch : Fin 1024), j = ix3 b r ch := ⟨j 0, j 1, j 2, eq_ix3 j⟩
  show outAffine (iblk1 V c 0 t) (iblk1 V c 1 t) (iblk1 V c 2 t) (ix3 b r ch) = affineArr V c (((cfg1.win 3).blk t).view.emb (ix3 b r ch))
  refine (outAffine_apply (iblk1 V c 0 t) (iblk1 V c 1 t) (iblk1 V c 2 t) b r ch).trans ?_
  have h0 : ((cfg1.win 0).blk t).view.emb (ix3 b r ch) = ((cfg1.win 3).blk t).view.emb (ix3 b r ch) :=
    funext fun a => Fin.ext ((win1_0.rect_emb_val t _ a).trans ((congrArg (· * _ + _) (z03 a)).trans (win1_3.rect_emb_val t _ a).symm))
  have h1 : ((cfg1.win 1).blk t).view.emb (ix3 (0 : Fin 1) (0 : Fin 1) ch) = ix3 (0 : Fin 1) (0 : Fin 1) ch :=
    funext fun a => Fin.ext (win1_1.rect_emb_val_of_index_zero t a (z1 a) _)
  have h2 : ((cfg1.win 2).blk t).view.emb (ix3 (0 : Fin 1) (0 : Fin 1) ch) = ix3 (0 : Fin 1) (0 : Fin 1) ch :=
    funext fun a => Fin.ext (win1_2.rect_emb_val_of_index_zero t a (z2 a) _)
  have h3 : (((cfg1.win 3).blk t).view.emb (ix3 b r ch) (2 : Fin 3) : Fin 1024) = ch :=
    Fin.ext (win1_3.rect_emb_val_of_index_zero t (2 : Fin 3) e32 _)
  show hArr V c (((cfg1.win 0).blk t).view.emb (ix3 b r ch)) * scArr V c (((cfg1.win 1).blk t).view.emb (ix3 (0 : Fin 1) (0 : Fin 1) ch))
      + shArr V c (((cfg1.win 2).blk t).view.emb (ix3 (0 : Fin 1) (0 : Fin 1) ch))
    = hArr V c (((cfg1.win 3).blk t).view.emb (ix3 b r ch)) * scArr V c (ix3 (0 : Fin 1) (0 : Fin 1) (((cfg1.win 3).blk t).view.emb (ix3 b r ch) (2 : Fin 3) : Fin 1024))
      + shArr V c (ix3 (0 : Fin 1) (0 : Fin 1) (((cfg1.win 3).blk t).view.emb (ix3 b r ch) (2 : Fin 3) : Fin 1024))
  rw [h0, h1, h2, h3]

-- Node `n` lies in the block of point `n / 64`.
theorem arr1_apply_of (c : Dev nD) (b : Fin 8) (n : Fin 512) (ch : Fin 1024) (x s d : EReal)
    (hx : V c main_v48_0 (ix3 b n ch) = x) (hs : V c main_v67 (ix3 (0 : Fin 1) (0 : Fin 1) ch) = s)
    (hd : V c main_v68 (ix3 (0 : Fin 1) (0 : Fin 1) ch) = d) :
    (dat1 (F := Ideal) V c).arrAt 3 cfg1.N (ix3 b n ch) = x * s + d := by
  subst hx hs hd
  have hb := b.isLt; have hn := n.isLt; have hc := ch.isLt
  obtain ⟨t, ht⟩ : ∃ t : Fin cfg1.N, t.val = n.val / 64 := ⟨⟨n.val / 64, by rw [show cfg1.N = 8 from N_1]; omega⟩, rfl⟩
  obtain ⟨-, -, -, e30, e31, e32⟩ := idx_facts t
  refine (dat1 V c).arrAt_apply_of_mem 3 (affineArr V c) (fun t _ => flushed_eq V c t) cfg1.N t _ t.isLt (flush1_3 t) ?_
  show ix3 b n ch ∈ ((View.whole main_v69).slice (win1_3.rect t)).set
  rw [View.set_slice_whole, Rect.mem_set_unit]
  intro a
  match a with
  | ⟨0, _⟩ => show win1_3.index t (0 : Fin 3) * 8 ≤ b.val ∧ b.val < win1_3.index t (0 : Fin 3) * 8 + 8; omega
  | ⟨1, _⟩ => show win1_3.index t (1 : Fin 3) * 64 ≤ n.val ∧ n.val < win1_3.index t (1 : Fin 3) * 64 + 64; omega
  | ⟨2, _⟩ => show win1_3.index t (2 : Fin 3) * 1024 ≤ ch.val ∧ ch.val < win1_3.index t (2 : Fin 3) * 1024 + 1024; omega

end Cert.KernelIdeal.Val.Tail

end
-- ==== Proof.KValue.lean ====
import proofs.«402726_j40862318854444_3_alg».proof.Proof.KArgs
import proofs.«402726_j40862318854444_3_alg».proof.Proof.KValRows1
import proofs.«402726_j40862318854444_3_alg».proof.Proof.KValArr
import proofs.«402726_j40862318854444_3_alg».proof.Proof.KValHost0
import proofs.«402726_j40862318854444_3_alg».proof.Proof.KValTail
import proofs.«402726_j40862318854444_3_alg».proof.Proof.SpecK

noncomputable section

namespace Cert.KernelIdeal.Val

open Idealize.ShloMosaic Idealize.ShloMosaic.TcCoe Idealize.ShloMosaic.ValueIdx Idealize.SL.Sem
open Cert.KernelIdeal Cert.KernelIdeal.Gen Cert.KernelIdeal.Fr

variable (m : (ℓ : Loc nD τ sig) → Buf (Elt Ideal) ℓ) (c : Dev nD)

abbrev aX : Cert.Spec.Feat := fun b n f => m ((c : Thread nD τ).loc main_arg0) (ix3 b n f)
abbrev aI1 : Cert.Spec.Nbrs := fun j => m ((c : Thread nD τ).loc main_arg1) (ix1 j)
abbrev aI2 : Cert.Spec.Nbrs := fun j => m ((c : Thread nD τ).loc main_arg2) (ix1 j)
abbrev aI3 : Cert.Spec.Nbrs := fun j => m ((c : Thread nD τ).loc main_arg3) (ix1 j)
abbrev aWx : Fin 256 → Fin 256 → EReal := fun o f => m ((c : Thread nD τ).loc main_arg4) (ix2 o f)
abbrev aBx : Fin 256 → EReal := fun o => m ((c : Thread nD τ).loc main_arg5) (ix1 o)
abbrev aWn : Fin 256 → Fin 256 → EReal := fun o f => m ((c : Thread nD τ).loc main_arg6) (ix2 o f)
abbrev aBn : Fin 256 → EReal := fun o => m ((c : Thread nD τ).loc main_arg7) (ix1 o)
abbrev aG : Fin 1024 → EReal := fun ch => m ((c : Thread nD τ).loc main_arg8) (ix1 ch)
abbrev aB : Fin 1024 → EReal := fun ch => m ((c : Thread nD τ).loc main_arg9) (ix1 ch)

abbrev HK : Cert.Spec.Chan := Cert.Spec.hK (aX m c) (aI1 m c) (aI2 m c) (aI3 m c) (aWx m c) (aBx m c) (aWn m c) (aBn m c)

-- The first region reads the features, the three mean-adjacency matrices, the transposed weights and the biases of the arguments.
theorem hOf_V7 (h1 : Cert.Spec.InRange (aI1 m c)) (h2 : Cert.Spec.InRange (aI2 m c)) (h3 : Cert.Spec.InRange (aI3 m c)) :
    hOf (Fr.V7 m) c = HK m c := by
  show Cert.Spec.hKer (xOf (Fr.V7 m) c) (matOf (Fr.V7 m c main_v13)) (matOf (Fr.V7 m c main_v27)) (matOf (Fr.V7 m c main_v41))
      (wOf (Fr.V7 m c main_v43)) (bOf (Fr.V7 m c main_v46)) (wOf (Fr.V7 m c main_v45)) (bOf (Fr.V7 m c main_v47)) = _
  rw [show xOf (Fr.V7 m) c = aX m c from funext fun _ => funext fun _ => funext fun _ => congrFun (Host0.V7_arg0 m c) _,
    show matOf (Fr.V7 m c main_v13) = _ from funext₂ (Host0.V7_adj1 m c h1), show matOf (Fr.V7 m c main_v27) = _ from funext₂ (Host0.V7_adj2 m c h2),
    show matOf (Fr.V7 m c main_v41) = _ from funext₂ (Host0.V7_adj3 m c h3), show wOf (Fr.V7 m c main_v43) = _ from funext₂ (Host0.V7_wx m c),
    show wOf (Fr.V7 m c main_v45) = _ from funext₂ (Host0.V7_wn m c), show bOf (Fr.V7 m c main_v46) = _ from funext (Host0.V7_bx m c),
    show bOf (Fr.V7 m c main_v47) = _ from funext (Host0.V7_bn m c)]
  rfl

theorem half_cover (n : Fin 512) : ∃ (core : Fin 2) (r : Fin 256), n = Cert.Spec.half core r :=
  ⟨⟨n.val / 256, by have := n.isLt; omega⟩, ⟨n.val % 256, Nat.mod_lt _ (by decide)⟩, Fin.ext (by simp only [Cert.Spec.half]; omega)⟩

-- The result array at the program's end, read at an index: the first region's row there times the channel's scale plus its shift.
theorem kernel_value (h1 : Cert.Spec.InRange (aI1 m c)) (h2 : Cert.Spec.InRange (aI2 m c)) (h3 : Cert.Spec.InRange (aI3 m c))
    (b : Fin 8) (n : Fin 512) (ch : Fin 1024) :
    Fr.W10 (F := Ideal) m c main_v69 (ix3 b n ch)
      = Cert.Spec.K (aX m c) (aI1 m c) (aI2 m c) (aI3 m c) (aWx m c) (aBx m c) (aWn m c) (aBn m c) (aG m c) (aB m c) b n ch := by
  have hO := hOf_V7 m c h1 h2 h3
  obtain ⟨core, r, rfl⟩ := half_cover n
  have h8 := Arr.arr8_apply (Fr.V7 m) c b core r ch
  have h9 := Arr.arr9_apply (Fr.V7 m) c
  have h10 := Arr.arr10_apply (Fr.V7 m) c
  simp only [rowsAt_apply, hO] at h8 h9 h10
  have hS : (fun core ch => (Fr.V8 m c main_v48_1 (ix3 core (0 : Fin 1) ch) : EReal)) = Cert.Spec.partS (HK m c) :=
    funext fun core => funext fun ch => (congrFun (Fr.hF0 m c 9).symm _).trans (h9 core ch)
  have hQ : (fun core ch => (Fr.V8 m c main_v48_2 (ix3 core (0 : Fin 1) ch) : EReal)) = Cert.Spec.partQ (HK m c) :=
    funext fun core => funext fun ch => (congrFun (Fr.hF0 m c 10).symm _).trans (h10 core ch)
  have hsc := Tail.V9_scale m c ch
  have hsh := Tail.V9_shift m c ch
  rw [hS, hQ] at hsc hsh
  rw [Cert.Spec.scaleOf_part] at hsc
  rw [Cert.Spec.shiftOf_part] at hsh
  exact (congrFun (Fr.W10_main_v69 m c) _).trans (Tail.arr1_apply_of (Fr.V9 m) c b _ ch _ _ _
    ((congrFun (Tail.V9_h m c) _).trans ((congrFun (Fr.hF0 m c 8).symm _).trans h8)) hsc hsh)

end Cert.KernelIdeal.Val

end
-- ==== Proof.RefTerm.lean ====
import proofs.«402726_j40862318854444_3_alg».proof.ReferenceIdeal
import Idealize.ShloMosaic.PureOps.Ideal

noncomputable section

namespace Cert.ReferenceIdeal.RefTerm

open Idealize.ShloMosaic Facts₀ Facts

variable [Facts]

/-- A negative word is moved up by 512, any other word is kept. -/
def wrap (idx : IVec S16384 32) : IVec S16384 32 :=
  select (cmpi .slt idx (broadcastInDim S16384 ![] bcast_S_S16384 (constantI S_ 32 0#32)))
    (addi idx (broadcastInDim S16384 ![] bcast_S_S16384 (constantI S_ 32 512#32)))
    idx

def start (idx : IVec S16384 32) : IVec S16384x1 32 :=
  broadcastInDim S16384x1 ![0] bcast_S16384_S16384x1_0 (wrap idx)

def inside (idx : IVec S16384 32) : IVec S16384 1 :=
  Host.reduce IntOp.andi
    (andi
      (cmpi .sge (start idx) (broadcastInDim S16384x1 ![] bcast_S_S16384x1 (constantI S_ 32 0#32)))
      (cmpi .sle (start idx)
        (broadcastInDim S16384x1 ![0, 1] bcast_S1x1_S16384x1_0_1
          (broadcastInDim S1x1 ![1] bcast_S1_S1x1_1 (constantI S1 32 511#32)))))
    (constantI S_ 1 1#1) reducesTo_S16384x1_S16384_d1 h_S_

/-- The rows of `x` that the words name; a fixed filler where a word names no row. -/
def take (x : FVec Ideal S8x512x256 .f32) (idx : IVec S16384 32) : FVec Ideal S8x16384x256 .f32 :=
  select (broadcastInDim S8x16384x256 ![1] bcast_S16384_S8x16384x256_1 (inside idx))
    (Host.gather gather_S8x512x256_S16384x1_S8x16384x256_02_1_n_n_1_1_81256 x (start idx))
    (broadcastInDim S8x16384x256 ![] bcast_S_S8x16384x256 (constant (F := Ideal) S_ .f32 0x7FC00000#32))

/-- The gathered rows in groups of 32: each group's sum divided by 32. -/
def nmean (x : FVec Ideal S8x512x256 .f32) (idx : IVec S16384 32) : FVec Ideal S8x512x256 .f32 :=
  Host.divf
    (Host.reduceAdd (shapeCast S8x512x32x256 (take x idx) shapeCasts_S8x16384x256_S8x512x32x256)
      (constant (F := Ideal) S_ .f32 0x00000000#32) reducesTo_S8x512x32x256_S8x512x256_d2 h_S_)
    (broadcastInDim S8x512x256 ![] bcast_S_S8x512x256 (constant (F := Ideal) S_ .f32 0x42000000#32))

def linear (z : FVec Ideal S8x512x256 .f32) (W : FVec Ideal S256x256 .f32) (bias : FVec Ideal S256 .f32) :
    FVec Ideal S8x512x256 .f32 :=
  addf (Host.dotGeneral dot_S8x512x256_S256x256_S8x512x256_2_1_01_0_n_n none z W)
    (broadcastInDim S8x512x256 ![0, 1, 2] bcast_S1x1x256_S8x512x256_0_1_2
      (broadcastInDim S1x1x256 ![2] bcast_S256_S1x1x256_2 bias))

def cat4 (h0 h1 h2 h3 : FVec Ideal S8x512x256 .f32) : FVec Ideal S8x512x1024 .f32 :=
  concatenate S8x512x1024 2 [⟨S8x512x256, h0⟩, ⟨S8x512x256, h1⟩, ⟨S8x512x256, h2⟩, ⟨S8x512x256, h3⟩]
    concatenates_S8x512x256_S8x512x256_S8x512x256_S8x512x256_S8x512x1024_d2

/-- Per row, the larger of the Euclidean norm and a small constant. -/
def rownorm (h : FVec Ideal S8x512x1024 .f32) : FVec Ideal S8x512x1 .f32 :=
  maximumf
    (Host.sqrt
      (broadcastInDim S8x512x1 ![0, 1] bcast_S8x512_S8x512x1_0_1
        (Host.reduceAdd (mulf h h) (constant (F := Ideal) S_ .f32 0x00000000#32) reducesTo_S8x512x1024_S8x512_d2 h_S_)))
    (broadcastInDim S8x512x1 ![] bcast_S_S8x512x1 (constant (F := Ideal) S_ .f32 0x2B8CBCCC#32))

def normalize (h : FVec Ideal S8x512x1024 .f32) : FVec Ideal S8x512x1024 .f32 :=
  Host.divf h (broadcastInDim S8x512x1024 ![0, 1, 2] bcast_S8x512x1_S8x512x1024_0_1_2 (rownorm h))

def relu (h : FVec Ideal S8x512x1024 .f32) : FVec Ideal S8x512x1024 .f32 :=
  maximumf h (broadcastInDim S8x512x1024 ![] bcast_S_S8x512x1024 (constant (F := Ideal) S_ .f32 0x00000000#32))

def rows (v : FVec Ideal S1024 .f32) : FVec Ideal S8x512x1024 .f32 :=
  broadcastInDim S8x512x1024 ![0, 1, 2] bcast_S1x1x1024_S8x512x1024_0_1_2
    (broadcastInDim S1x1x1024 ![2] bcast_S1024_S1x1x1024_2 v)

/-- Per channel, the sum over all 4096 rows divided by 4096. -/
def cmean (h : FVec Ideal S8x512x1024 .f32) : FVec Ideal S1024 .f32 :=
  Host.divf
    (Host.reduceAdd h (constant (F := Ideal) S_ .f32 0x00000000#32) reducesTo_S8x512x1024_S1024_d0_1 h_S_)
    (broadcastInDim S1024 ![] bcast_S_S1024 (constant (F := Ideal) S_ .f32 0x45800000#32))

def centred (h : FVec Ideal S8x512x1024 .f32) : FVec Ideal S8x512x1024 .f32 :=
  subf h (rows (cmean h))

def cvar (h : FVec Ideal S8x512x1024 .f32) : FVec Ideal S1024 .f32 :=
  cmean (mulf (centred h) (centred h))

/-- Centre, divide by the root of the variance plus a small constant, scale by `γ`, shift by `β`. -/
def bnorm (h : FVec Ideal S8x512x1024 .f32) (γ β : FVec Ideal S1024 .f32) : FVec Ideal S8x512x1024 .f32 :=
  addf
    (mulf
      (mulf (centred h)
        (rows (Host.rsqrt (addf (cvar h)
          (broadcastInDim S1024 ![] bcast_S_S1024 (constant (F := Ideal) S_ .f32 0x3727C5AC#32))))))
      (rows γ))
    (rows β)

def nbr (x : FVec Ideal S8x512x256 .f32) (idx : IVec S16384 32)
    (Wn : FVec Ideal S256x256 .f32) (bn : FVec Ideal S256 .f32) : FVec Ideal S8x512x256 .f32 :=
  linear (nmean x idx) Wn bn

def tail (h0 h1 h2 h3 : FVec Ideal S8x512x256 .f32) (γ β : FVec Ideal S1024 .f32) : FVec Ideal S8x512x1024 .f32 :=
  bnorm (relu (normalize (cat4 h0 h1 h2 h3))) γ β

def res (x : FVec Ideal S8x512x256 .f32) (i1 i2 i3 : IVec S16384 32)
    (Wx : FVec Ideal S256x256 .f32) (bx : FVec Ideal S256 .f32)
    (Wn : FVec Ideal S256x256 .f32) (bn : FVec Ideal S256 .f32)
    (γ β : FVec Ideal S1024 .f32) : FVec Ideal S8x512x1024 .f32 :=
  tail (linear x Wx bx) (nbr x i1 Wn bn) (nbr x i2 Wn bn) (nbr x i3 Wn bn) γ β

end Cert.ReferenceIdeal.RefTerm

end
-- ==== Proof.RefRun.lean ====
import proofs.«402726_j40862318854444_3_alg».proof.ReferenceIdeal
import proofs.«402726_j40862318854444_3_alg».proof.Proof.Gen.ReferenceIdeal
import Idealize.ShloMosaic.Lib.StableHlo.Run
import proofs.«402726_j40862318854444_3_alg».proof.Proof.RefTerm

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- One call of the row gather: its 23 operations over the call's own buffers, then the line `k`. -/
abbrev takeOps (x : TRef sig ⟨S8x512x256, .f32⟩) (i : TRef sig ⟨S16384, .i32⟩) (φ : fn_take.Bufs)
    (k : List (HloOp τ sig (Elt F))) : List (HloOp τ sig (Elt F)) :=
  TRef.nullary φ.c (constantI S_ 32 0#32) ::
  TRef.unary φ.c φ.v0 (broadcastInDim S16384 ![] bcast_S_S16384) ::
  TRef.binary i φ.v0 φ.v1 (cmpi .slt) ::
  TRef.nullary φ.c_0 (constantI S_ 32 512#32) ::
  TRef.unary φ.c_0 φ.v2 (broadcastInDim S16384 ![] bcast_S_S16384) ::
  TRef.binary i φ.v2 φ.v3 addi ::
  TRef.ternary φ.v1 φ.v3 i φ.call0.v0 select ::
  TRef.unary φ.call0.v0 φ.v5 (broadcastInDim S16384x1 ![0] bcast_S16384_S16384x1_0) ::
  TRef.nullary φ.c_1 (constantI S1 32 511#32) ::
  TRef.nullary φ.c_2 (constantI S_ 32 0#32) ::
  TRef.unary φ.c_2 φ.v6 (broadcastInDim S16384x1 ![] bcast_S_S16384x1) ::
  TRef.binary φ.v5 φ.v6 φ.v7 (cmpi .sge) ::
  TRef.unary φ.c_1 φ.v8 (broadcastInDim S1x1 ![1] bcast_S1_S1x1_1) ::
  TRef.unary φ.v8 φ.v9 (broadcastInDim S16384x1 ![0, 1] bcast_S1x1_S16384x1_0_1) ::
  TRef.binary φ.v5 φ.v9 φ.v10 (cmpi .sle) ::
  TRef.binary φ.v7 φ.v10 φ.v11 andi ::
  TRef.nullary φ.c_3 (constantI S_ 1 1#1) ::
  TRef.binary φ.v11 φ.c_3 φ.v12 (fun x v => Host.reduce IntOp.andi x v reducesTo_S16384x1_S16384_d1 h_S_) ::
  TRef.binary x φ.v5 φ.v13 (Host.gather gather_S8x512x256_S16384x1_S8x16384x256_02_1_n_n_1_1_81256) ::
  TRef.unary φ.v12 φ.v14 (broadcastInDim S8x16384x256 ![1] bcast_S16384_S8x16384x256_1) ::
  TRef.nullary φ.cst (constant S_ .f32 0x7FC00000#32) ::
  TRef.unary φ.cst φ.v15 (broadcastInDim S8x16384x256 ![] bcast_S_S8x16384x256) ::
  TRef.ternary φ.v14 φ.v13 φ.v15 φ.v16 select ::
  k

/-- The node's own linear map, then the first neighbour list: gather, mean of each 32 rows, linear map. -/
abbrev opsA : List (HloOp τ sig (Elt F)) :=
  binary main_arg0 main_arg4 main_v0 (Host.dotGeneral dot_S8x512x256_S256x256_S8x512x256_2_1_01_0_n_n none) ::
  unary main_arg5 main_v1 (broadcastInDim S1x1x256 ![2] bcast_S256_S1x1x256_2) ::
  unary main_v1 main_v2 (broadcastInDim S8x512x256 ![0, 1, 2] bcast_S1x1x256_S8x512x256_0_1_2) ::
  binary main_v0 main_v2 main_v3 addf ::
  takeOps (.of main_arg0) (.of main_arg1) main_call0
    [reshape main_v4 main_v5 rfl shapeCasts_S8x16384x256_S8x512x32x256,
     nullary main_cst (constant S_ .f32 0x00000000#32),
     binary main_v5 main_cst main_v6 (fun x v => Host.reduceAdd x v reducesTo_S8x512x32x256_S8x512x256_d2 h_S_),
     nullary main_cst_0 (constant S_ .f32 0x42000000#32),
     unary main_cst_0 main_v7 (broadcastInDim S8x512x256 ![] bcast_S_S8x512x256),
     binary main_v6 main_v7 main_v8 Host.divf,
     binary main_v8 main_arg6 main_v9 (Host.dotGeneral dot_S8x512x256_S256x256_S8x512x256_2_1_01_0_n_n none),
     unary main_arg7 main_v10 (broadcastInDim S1x1x256 ![2] bcast_S256_S1x1x256_2),
     unary main_v10 main_v11 (broadcastInDim S8x512x256 ![0, 1, 2] bcast_S1x1x256_S8x512x256_0_1_2),
     binary main_v9 main_v11 main_v12 addf]

/-- The second neighbour list. -/
abbrev opsB : List (HloOp τ sig (Elt F)) := takeOps (.of main_arg0) (.of main_arg2) main_call1
  [reshape main_v13 main_v14 rfl shapeCasts_S8x16384x256_S8x512x32x256,
   nullary main_cst_1 (constant S_ .f32 0x00000000#32),
   binary main_v14 main_cst_1 main_v15 (fun x v => Host.reduceAdd x v reducesTo_S8x512x32x256_S8x512x256_d2 h_S_),
   nullary main_cst_2 (constant S_ .f32 0x42000000#32),
   unary main_cst_2 main_v16 (broadcastInDim S8x512x256 ![] bcast_S_S8x512x256),
   binary main_v15 main_v16 main_v17 Host.divf,
   binary main_v17 main_arg6 main_v18 (Host.dotGeneral dot_S8x512x256_S256x256_S8x512x256_2_1_01_0_n_n none),
   unary main_arg7 main_v19 (broadcastInDim S1x1x256 ![2] bcast_S256_S1x1x256_2),
   unary main_v19 main_v20 (broadcastInDim S8x512x256 ![0, 1, 2] bcast_S1x1x256_S8x512x256_0_1_2),
   binary main_v18 main_v20 main_v21 addf]

/-- The third neighbour list. -/
abbrev opsC : List (HloOp τ sig (Elt F)) := takeOps (.of main_arg0) (.of main_arg3) main_call2
  [reshape main_v22 main_v23 rfl shapeCasts_S8x16384x256_S8x512x32x256,
   nullary main_cst_3 (constant S_ .f32 0x00000000#32),
   binary main_v23 main_cst_3 main_v24 (fun x v => Host.reduceAdd x v reducesTo_S8x512x32x256_S8x512x256_d2 h_S_),
   nullary main_cst_4 (constant S_ .f32 0x42000000#32),
   unary main_cst_4 main_v25 (broadcastInDim S8x512x256 ![] bcast_S_S8x512x256),
   binary main_v24 main_v25 main_v26 Host.divf,
   binary main_v26 main_arg6 main_v27 (Host.dotGeneral dot_S8x512x256_S256x256_S8x512x256_2_1_01_0_n_n none),
   unary main_arg7 main_v28 (broadcastInDim S1x1x256 ![2] bcast_S256_S1x1x256_2),
   unary main_v28 main_v29 (broadcastInDim S8x512x256 ![0, 1, 2] bcast_S1x1x256_S8x512x256_0_1_2),
   binary main_v27 main_v29 main_v30 addf]

/-- The four results side by side, each row over its clamped norm, negatives to zero, the channel mean and squared deviations. -/
abbrev opsD0 : List (HloOp τ sig (Elt F)) :=
  [nary ![main_v3, main_v12, main_v21, main_v30] main_v31 (fun u => concatenate S8x512x1024 2 [⟨S8x512x256, u 0⟩, ⟨S8x512x256, u 1⟩, ⟨S8x512x256, u 2⟩, ⟨S8x512x256, u 3⟩] concatenates_S8x512x256_S8x512x256_S8x512x256_S8x512x256_S8x512x1024_d2),
   binary main_v31 main_v31 main_v32 mulf,
   nullary main_cst_5 (constant S_ .f32 0x00000000#32),
   binary main_v32 main_cst_5 main_v33 (fun x v => Host.reduceAdd x v reducesTo_S8x512x1024_S8x512_d2 h_S_),
   unary main_v33 main_v34 (broadcastInDim S8x512x1 ![0, 1] bcast_S8x512_S8x512x1_0_1),
   unary main_v34 main_v35 Host.sqrt,
   nullary main_cst_6 (constant S_ .f32 0x2B8CBCCC#32),
   unary main_cst_6 main_v36 (broadcastInDim S8x512x1 ![] bcast_S_S8x512x1),
   binary main_v35 main_v36 main_v37 maximumf,
   unary main_v37 main_v38 (broadcastInDim S8x512x1024 ![0, 1, 2] bcast_S8x512x1_S8x512x1024_0_1_2),
   binary main_v31 main_v38 main_v39 Host.divf,
   TRef.nullary main_call3.cst (constant S_ .f32 0x00000000#32),
   TRef.unary main_call3.cst main_call3.v0 (broadcastInDim S8x512x1024 ![] bcast_S_S8x512x1024),
   TRef.binary (TRef.of main_v39 : TRef sig ⟨S8x512x1024, .f32⟩) main_call3.v0 main_call3.v1 maximumf,
   nullary main_cst_7 (constant S_ .f32 0x00000000#32),
   binary main_v40 main_cst_7 main_v41 (fun x v => Host.reduceAdd x v reducesTo_S8x512x1024_S1024_d0_1 h_S_),
   nullary main_cst_8 (constant S_ .f32 0x45800000#32),
   unary main_cst_8 main_v42 (broadcastInDim S1024 ![] bcast_S_S1024),
   binary main_v41 main_v42 main_v43 Host.divf,
   unary main_v43 main_v44 (broadcastInDim S1x1x1024 ![2] bcast_S1024_S1x1x1024_2),
   unary main_v44 main_v45 (broadcastInDim S8x512x1024 ![0, 1, 2] bcast_S1x1x1024_S8x512x1024_0_1_2),
   binary main_v40 main_v45 main_v46 subf,
   binary main_v46 main_v46 main_v47 mulf,
   nullary main_cst_9 (constant S_ .f32 0x00000000#32),
   binary main_v47 main_cst_9 main_v48 (fun x v => Host.reduceAdd x v reducesTo_S8x512x1024_S1024_d0_1 h_S_)]

/-- The variance, its inverse root, the scale and the shift. -/
abbrev opsD1 : List (HloOp τ sig (Elt F)) :=
  [nullary main_cst_10 (constant S_ .f32 0x45800000#32),
   unary main_cst_10 main_v49 (broadcastInDim S1024 ![] bcast_S_S1024),
   binary main_v48 main_v49 main_v50 Host.divf,
   unary main_v43 main_v51 (broadcastInDim S1x1x1024 ![2] bcast_S1024_S1x1x1024_2),
   unary main_v51 main_v52 (broadcastInDim S8x512x1024 ![0, 1, 2] bcast_S1x1x1024_S8x512x1024_0_1_2),
   binary main_v40 main_v52 main_v53 subf,
   nullary main_cst_11 (constant S_ .f32 0x3727C5AC#32),
   unary main_cst_11 main_v54 (broadcastInDim S1024 ![] bcast_S_S1024),
   binary main_v50 main_v54 main_v55 addf,
   unary main_v55 main_v56 Host.rsqrt,
   unary main_v56 main_v57 (broadcastInDim S1x1x1024 ![2] bcast_S1024_S1x1x1024_2),
   unary main_v57 main_v58 (broadcastInDim S8x512x1024 ![0, 1, 2] bcast_S1x1x1024_S8x512x1024_0_1_2),
   binary main_v53 main_v58 main_v59 mulf,
   unary main_arg8 main_v60 (broadcastInDim S1x1x1024 ![2] bcast_S1024_S1x1x1024_2),
   unary main_v60 main_v61 (broadcastInDim S8x512x1024 ![0, 1, 2] bcast_S1x1x1024_S8x512x1024_0_1_2),
   binary main_v59 main_v61 main_v62 mulf,
   unary main_arg9 main_v63 (broadcastInDim S1x1x1024 ![2] bcast_S1024_S1x1x1024_2),
   unary main_v63 main_v64 (broadcastInDim S8x512x1024 ![0, 1, 2] bcast_S1x1x1024_S8x512x1024_0_1_2),
   binary main_v62 main_v64 main_v65 addf]

abbrev ops0 : List (HloOp τ sig (Elt F)) := opsA ++ (opsB ++ (opsC ++ opsD0))

/-- All 147 operations, in order. -/
abbrev ops : List (HloOp τ sig (Elt F)) := ops0 ++ opsD1

theorem main_part0_eq (c : Dev nD) : main_part0 (F := F) c = seq ops0 := rfl

theorem main_part1_eq (c : Dev nD) : main_part1 (F := F) c = seq opsD1 := rfl

theorem main_eq (c : Dev nD) : main (F := F) c = seq ops := by
  rw [ops, seq_append, ← main_part0_eq c, ← main_part1_eq c]; rfl

/-- The value buffers numbered `lo`, …, `lo + n - 1`. -/
abbrev W (lo n : ℕ) : List (Ref sig .tc) :=
  ((List.finRange _).filter fun i => lo ≤ i.1 ∧ i.1 < lo + n).map fun i => ⟨.hbm, i, rfl⟩

/-- Every operation of the line writes among those buffers only. -/
abbrev Writes (l : List (HloOp τ sig (Elt F))) (lo n : ℕ) : Prop :=
  l.Forall fun op => op.writes ⊆ ((W lo n).map (Proc.devRef (τ := τ) .tc)).toFinset

theorem ops_sub : (ops : List (HloOp τ sig (Elt F))).Forall fun op => op.bufs ⊆ tcRefs τ sig := by
  simp only [List.forall_append, List.Forall, nullary_bufs_sub, unary_bufs_sub, binary_bufs_sub, ternary_bufs_sub,
    reshape_bufs_sub, nary_bufs_sub, and_self]

/-- The operations write the value buffers in the order of their numbers, one each: a window writes its own range. -/
theorem writes : Writes (F := F) opsA 10 37 ∧ Writes (F := F) opsB 47 33 ∧ Writes (F := F) opsC 80 33 ∧
    Writes (F := F) opsD0 113 25 ∧ Writes (F := F) opsD1 138 19 ∧ Writes (F := F) ops 10 147 := by
  simp only [Writes, List.forall_append, List.Forall, nullary_writes, unary_writes, binary_writes, ternary_writes,
    reshape_writes, nary_writes, Finset.singleton_subset_iff, List.mem_toFinset,
    List.mem_map_of_injective (Proc.devRef_injective _)]
  and_intros <;> decide +kernel

/-- A buffer outside the range a line writes keeps its contents through it. -/
theorem keep {l : List (HloOp τ sig (Elt F))} {lo n : ℕ} (h : Writes l lo n) (r : Ref sig .tc)
    (hr : r ∉ W lo n := by decide +kernel) (V : Valuation τ sig (Elt F)) :
    after l V (Proc.devRef .tc r) = V (Proc.devRef .tc r) :=
  after_of_writes_sub l V h hr

/-- The fold over two lines in a row is the second's fold over the first's. -/
theorem after_append : ∀ (l₁ l₂ : List (HloOp τ sig (Elt F))) (V : Valuation τ sig (Elt F)),
    after (l₁ ++ l₂) V = after l₂ (after l₁ V)
  | [], _, _ => rfl
  | _ :: l₁, l₂, V => after_append l₁ l₂ _

theorem val_lin (V : Valuation τ sig (Elt Ideal)) :
    after (opsA (F := Ideal)) V main_v3 = RefTerm.linear (V main_arg0) (V main_arg4) (V main_arg5) := by
  after_results_simp; rfl

/-- Each neighbour window leaves the neighbour stage of the result term, of what it started from. -/
theorem val_nbr (V : Valuation τ sig (Elt Ideal)) :
    after (opsA (F := Ideal)) V main_v12 = RefTerm.nbr (V main_arg0) (V main_arg1) (V main_arg6) (V main_arg7) ∧
    after (opsB (F := Ideal)) V main_v21 = RefTerm.nbr (V main_arg0) (V main_arg2) (V main_arg6) (V main_arg7) ∧
    after (opsC (F := Ideal)) V main_v30 = RefTerm.nbr (V main_arg0) (V main_arg3) (V main_arg6) (V main_arg7) := by
  refine ⟨?_, ?_, ?_⟩ <;>
    (after_results_simp; simp only [TRef.ofBuf, TRef.toBuf, cast_eq]; rfl)

theorem val_tail (V : Valuation τ sig (Elt Ideal)) :
    after (opsD1 (F := Ideal)) (after (opsD0 (F := Ideal)) V) main_v65
      = RefTerm.tail (V main_v3) (V main_v12) (V main_v21) (V main_v30) (V main_arg8) (V main_arg9) := by
  after_results_simp; simp only [TRef.ofBuf, TRef.toBuf, cast_eq]; rfl

/-- Window by window: each stage reads what the earlier windows left, kept by the windows between. -/
theorem out_eq (V : Valuation τ sig (Elt Ideal)) :
    after (ops (F := Ideal)) V main_v65 = RefTerm.res (V main_arg0) (V main_arg1) (V main_arg2) (V main_arg3) (V main_arg4) (V main_arg5) (V main_arg6) (V main_arg7) (V main_arg8) (V main_arg9) := by
  obtain ⟨wA, wB, wC, -⟩ := writes (F := Ideal)
  rw [ops, ops0, after_append, after_append, after_append, after_append, val_tail, (val_nbr _).2.2,
    keep wC main_v3, keep wC main_v12, keep wC main_v21, keep wC main_arg8, keep wC main_arg9, (val_nbr _).2.1,
    keep wB main_v3, keep wB main_v12, keep wB main_arg0, keep wB main_arg3, keep wB main_arg6, keep wB main_arg7,
    keep wB main_arg8, keep wB main_arg9, val_lin, (val_nbr _).1, keep wA main_arg0, keep wA main_arg2,
    keep wA main_arg3, keep wA main_arg6, keep wA main_arg7, keep wA main_arg8, keep wA main_arg9]
  rfl

/-- Every fair execution ends with the result buffer at the result term of the ten arguments as launched, the arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v65) = RefTerm.res (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c => have w := (writes (F := Ideal)).2.2.2.2.2
    ⟨(h c _).trans (out_eq _),
      (h c _).trans (keep w main_arg0 (V := _)),
      (h c _).trans (keep w main_arg1 (V := _)),
      (h c _).trans (keep w main_arg2 (V := _)),
      (h c _).trans (keep w main_arg3 (V := _)),
      (h c _).trans (keep w main_arg4 (V := _)),
      (h c _).trans (keep w main_arg5 (V := _)),
      (h c _).trans (keep w main_arg6 (V := _)),
      (h c _).trans (keep w main_arg7 (V := _)),
      (h c _).trans (keep w main_arg8 (V := _)),
      (h c _).trans (keep w main_arg9 (V := _))⟩)
    (run_seq (by decide) (by decide) defs main (fun _ => ops) main_eq (fun _ => ops_sub) m ρ)

end Cert.ReferenceIdeal.RefRun

end
-- ==== Proof.RefValue.lean ====
import proofs.«402726_j40862318854444_3_alg».proof.Proof.RefTerm
import proofs.«402726_j40862318854444_3_alg».proof.Proof.Spec
import Idealize.ShloMosaic.Lib.ValueIdx
import Idealize.ShloMosaic.Lib.Pipeline.Value
import Idealize.ShloMosaic.Lib.IdealHost
import Idealize.ShloMosaic.Lib.Affine
import Idealize.ShloMosaic.PureOps.Ideal.Laws
import Idealize.ShloMosaic.PureOps.Reduce

noncomputable section

namespace Cert.ReferenceIdeal.RefValue

open Idealize.ShloMosaic Idealize.ShloMosaic.ValueIdx
open Cert.ReferenceIdeal Cert.ReferenceIdeal.Facts₀ Cert.ReferenceIdeal.Facts
open scoped BigOperators

variable [Facts]

theorem wrap_apply (idx : IVec S16384 32) (j : Fin 16384) (h : 0 ≤ (idx (ix1 j)).toInt) :
    RefTerm.wrap idx (ix1 j) = idx (ix1 j) := by
  show Scalar.select (IntOp.cmpi .slt (idx (ix1 j)) 0#32) _ _ = _
  have e : IntOp.cmpi .slt (idx (ix1 j)) 0#32 = 0#1 := eq_zero_of_ne_one fun e => by
    have := IntOp.cmpi_slt.mp e
    have z : (0#32 : BitVec 32).toInt = 0 := by decide
    omega
  rw [e, select_zero]

theorem start_apply (idx : IVec S16384 32) (i : S16384x1.Idx) : RefTerm.start idx i = RefTerm.wrap idx (ix1 (i 0)) :=
  broadcastInDim_apply _ _ _ _ _ fun a => by fin_cases a; rfl

theorem foldl_andi_one {ι : Type} (f : ι → BitVec 1) :
    ∀ l : List ι, (∀ n ∈ l, f n = 1#1) → l.foldl (fun r n => IntOp.andi r (f n)) 1#1 = 1#1
  | [], _ => rfl
  | a :: l, h => by
    rw [List.foldl_cons, h a List.mem_cons_self]
    exact foldl_andi_one f l fun n hn => h n (List.mem_cons_of_mem _ hn)

theorem inside_apply (idx : IVec S16384 32) (m : Fin 16384) (h0 : 0 ≤ (idx (ix1 m)).toInt)
    (h1 : (idx (ix1 m)).toInt < 512) : RefTerm.inside idx (ix1 m) = 1#1 := by
  unfold RefTerm.inside
  rw [Host.reduce_eq_foldl]
  refine foldl_andi_one _ _ fun i hi => ?_
  obtain rfl : i 0 = m := Fin.ext (by
    rw [← Shape.ReducesTo.drop_apply_val_of_eq reducesTo_S16384x1_S16384_d1 i 0 0, of_decide_eq_true (List.mem_filter.mp hi).2])
  show IntOp.andi (IntOp.cmpi .sge (RefTerm.start idx i) 0#32) (IntOp.cmpi .sle (RefTerm.start idx i) 511#32) = 1#1
  rw [start_apply, wrap_apply idx _ h0]
  refine IntOp.andi_eq_one.mpr ⟨IntOp.cmpi_sge.mpr ?_, IntOp.cmpi_sle.mpr ?_⟩
  · have z : (0#32 : BitVec 32).toInt = 0 := by decide
    omega
  · have z : (511#32 : BitVec 32).toInt = 511 := by decide
    omega

/-- Batch and feature coordinates pass through; the row read is the start word, clamped to [0, 511]. -/
theorem gather_apply (x : FVec Ideal S8x512x256 .f32) (st : IVec S16384x1 32) (b : Fin 8) (m : Fin 16384) (f : Fin 256)
    (r : Fin 512) (hr : r.val = min (st (ix2 m (0 : Fin 1))).toInt.toNat 511) :
    Host.gather gather_S8x512x256_S16384x1_S8x16384x256_02_1_n_n_1_1_81256 x st (ix3 b m f) = x (ix3 b r f) := by
  unfold Host.gather
  refine congrArg x (funext fun a => Fin.ext ?_)
  match a with
  | ⟨0, _⟩ => exact Nat.zero_add _
  | ⟨1, _⟩ =>
    refine Eq.trans ?_ hr.symm
    exact congrArg (fun i => min (st i).toInt.toNat 511) (funext fun c => Fin.ext (by fin_cases c <;> rfl))
  | ⟨2, _⟩ => exact Nat.zero_add _

/-- For a word of [0, 512), reducing mod 512 and clamping to [0, 511] agree. -/
theorem word_row (w : BitVec 32) (h0 : 0 ≤ w.toInt) (h1 : w.toInt < 512) :
    w.toNat % 512 = min w.toInt.toNat 511 := by
  have hc := BitVec.toInt_eq_toNat_cond w
  have hl := w.isLt
  by_cases hlt : 2 * w.toNat < 2 ^ 32
  · rw [if_pos hlt] at hc; omega
  · rw [if_neg hlt] at hc; omega

theorem take_apply (x : FVec Ideal S8x512x256 .f32) (idx : IVec S16384 32) (b : Fin 8) (m : Fin 16384) (f : Fin 256)
    (h0 : 0 ≤ (idx (ix1 m)).toInt) (h1 : (idx (ix1 m)).toInt < 512) :
    RefTerm.take x idx (ix3 b m f) = x (ix3 b ⟨(idx (ix1 m)).toNat % 512, Nat.mod_lt _ (by decide)⟩ f) := by
  unfold RefTerm.take
  rw [select_apply, broadcastInDim_apply _ _ _ (ix3 b m f) (ix1 m) (fun a => by fin_cases a; rfl),
    inside_apply idx m h0 h1, select_one]
  refine gather_apply x _ b m f _ ?_
  rw [start_apply, wrap_apply idx m h0]
  exact word_row _ h0 h1

theorem nmean_eq (x : FVec Ideal S8x512x256 .f32) (idx : IVec S16384 32) (hin : Cert.Spec.InRange fun j => idx (ix1 j)) :
    (fun b n f => RefTerm.nmean x idx (ix3 b n f))
      = Cert.Spec.meanR (fun b n f => x (ix3 b n f)) (fun j => idx (ix1 j)) := by
  funext b n f
  unfold RefTerm.nmean Cert.Spec.meanR
  rw [hostDivf_apply, hostReduceAdd_apply,
    Ideal.hostReduceAdd_single reducesTo_S8x512x32x256_S8x512x256_d2 (by decide),
    broadcastInDim_scalar_apply, constant_apply, constant_apply, Ideal.ofBits_zero_f32, zero_add]
  refine congrArg (fun s => Ideal.div s Cert.Spec.c32) (Finset.sum_congr rfl fun k _ => ?_)
  refine (shapeCast_apply _ _ _ (ix3 b (Cert.Spec.slot n k) f) ?_).trans
    (take_apply x idx b (Cert.Spec.slot n k) f (hin _).1 (hin _).2)
  rw [Shape.rowMajor_val_three, Shape.rowMajor_val_four]
  show (b.val * 16384 + (n.val * 32 + k.val)) * 256 + f.val = ((b.val * 512 + n.val) * 32 + k.val) * 256 + f.val
  omega

theorem dot_apply (z : FVec Ideal S8x512x256 .f32) (W : FVec Ideal S256x256 .f32) (b : Fin 8) (n : Fin 512) (o : Fin 256) :
    Host.dotGeneral dot_S8x512x256_S256x256_S8x512x256_2_1_01_0_n_n none z W (ix3 b n o) = ∑ f : Fin 256, z (ix3 b n f) * W (ix2 o f) := by
  show FloatOps.dotGeneral _ none _ z W (ix3 b n o) = _
  rw [Ideal.dotGeneral_apply, ← Equiv.sum_comp (contrEquiv1 dot_S8x512x256_S256x256_S8x512x256_2_1_01_0_n_n 256 rfl rfl).symm]
  refine Finset.sum_congr rfl fun k _ => ?_
  have hk := contrEquiv1_symm_val dot_S8x512x256_S256x256_S8x512x256_2_1_01_0_n_n 256 rfl rfl k
  refine congrArg₂ (· * ·) (congrArg z (funext fun a => Fin.ext ?_)) (congrArg W (funext fun a => Fin.ext ?_))
  · fin_cases a <;> first | rfl | exact (DotDims.lhsIdx_val_of_single _ rfl _ _).trans hk
  · fin_cases a <;> first | rfl | exact (DotDims.rhsIdx_val_of_single _ rfl _ _).trans hk

/-- A vector laid along the last axis of a rank-3 array, through a [1, 1, C] row, reads the vector at the last coordinate. -/
theorem bcast_last {α : Type} {B N C : ℕ} (hC : C ≠ 1) (h₁ : (⟨1, ![C]⟩ : Shape).BroadcastsInDim ⟨3, ![1, 1, C]⟩ ![2])
    (h₂ : (⟨3, ![1, 1, C]⟩ : Shape).BroadcastsInDim ⟨3, ![B, N, C]⟩ ![0, 1, 2]) (v : (⟨1, ![C]⟩ : Shape).Idx → α)
    (b : Fin B) (n : Fin N) (c : Fin C) :
    broadcastInDim ⟨3, ![B, N, C]⟩ ![0, 1, 2] h₂ (broadcastInDim ⟨3, ![1, 1, C]⟩ ![2] h₁ v) (ix3 b n c) = v (ix1 c) :=
  (broadcastInDim_apply _ h₂ _ _ (ix3 (0 : Fin 1) (0 : Fin 1) c) fun a => by
    fin_cases a <;> first | rfl | exact (if_neg hC).symm).trans
  (broadcastInDim_apply _ h₁ _ _ (ix1 c) fun a => by fin_cases a; exact (if_neg hC).symm)

theorem linear_eq (z : FVec Ideal S8x512x256 .f32) (W : FVec Ideal S256x256 .f32) (bias : FVec Ideal S256 .f32) :
    (fun b n o => RefTerm.linear z W bias (ix3 b n o))
      = Cert.Spec.lin (fun b n f => z (ix3 b n f)) (fun o f => W (ix2 o f)) (fun o => bias (ix1 o)) := by
  funext b n o
  unfold RefTerm.linear Cert.Spec.lin
  rw [addf_apply, dot_apply, bcast_last (by decide)]

theorem cat4_eq (h0 h1 h2 h3 : FVec Ideal S8x512x256 .f32) :
    (fun b n ch => RefTerm.cat4 h0 h1 h2 h3 (ix3 b n ch))
      = Cert.Spec.hcat (fun b n f => h0 (ix3 b n f)) (fun b n f => h1 (ix3 b n f)) (fun b n f => h2 (ix3 b n f))
          (fun b n f => h3 (ix3 b n f)) := by
  funext b n ch
  have key : ∀ (k : Fin 4) (c : Fin 256), ch.val = k.val * 256 + c.val →
      RefTerm.cat4 h0 h1 h2 h3 (ix3 b n ch) = ![h0, h1, h2, h3] k (ix3 b n c) := fun k c e =>
    concatenate_ofFn_apply (t := S8x512x1024) 2 (fun k : Fin 4 => ![h0, h1, h2, h3] k) concatenates_S8x512x256_S8x512x256_S8x512x256_S8x512x256_S8x512x1024_d2 rfl 256 rfl (ix3 b n ch) k
      (by show ch.val / 256 = k.val; omega) (ix3 b n c) (by show c.val = ch.val % 256; omega) fun a ha => by
        fin_cases a <;> first | rfl | exact absurd rfl ha
  unfold Cert.Spec.hcat
  have hlt := ch.isLt
  by_cases c0 : ch.val < 256
  · rw [dif_pos c0]; exact key 0 ⟨ch.val, c0⟩ (by show ch.val = 0 * 256 + ch.val; omega)
  rw [dif_neg c0]
  by_cases c1 : ch.val < 512
  · rw [dif_pos c1]; exact key 1 ⟨ch.val - 256, by omega⟩ (by show ch.val = 1 * 256 + (ch.val - 256); omega)
  rw [dif_neg c1]
  by_cases c2 : ch.val < 768
  · rw [dif_pos c2]; exact key 2 ⟨ch.val - 512, by omega⟩ (by show ch.val = 2 * 256 + (ch.val - 512); omega)
  rw [dif_neg c2]
  exact key 3 ⟨ch.val - 768, by omega⟩ (by show ch.val = 3 * 256 + (ch.val - 768); omega)

theorem rownorm_apply (h : FVec Ideal S8x512x1024 .f32) (b : Fin 8) (n : Fin 512) :
    RefTerm.rownorm h (ix3 b n (0 : Fin 1))
      = max (Ideal.sqrt (∑ ch : Fin 1024, h (ix3 b n ch) * h (ix3 b n ch))) Cert.Spec.eps12 := by
  unfold RefTerm.rownorm
  rw [maximumf_apply, broadcastInDim_scalar_apply, constant_apply,
    show ∀ v : FVec Ideal S8x512x1 .f32, Host.sqrt v _ = Ideal.sqrt (v _) from fun _ => rfl,
    broadcastInDim_apply _ _ _ (ix3 b n (0 : Fin 1)) (ix2 b n) (fun a => by fin_cases a <;> rfl),
    hostReduceAdd_apply, Ideal.hostReduceAdd_single reducesTo_S8x512x1024_S8x512_d2 (by decide),
    constant_apply, Ideal.ofBits_zero_f32, zero_add]
  refine congrArg (fun s => max (Ideal.sqrt s) Cert.Spec.eps12) (Finset.sum_congr rfl fun k _ => ?_)
  exact congrArg (fun i => h i * h i) (funext fun a => Fin.ext (by fin_cases a <;> rfl))

theorem hn_eq (h : FVec Ideal S8x512x1024 .f32) :
    (fun b n ch => RefTerm.relu (RefTerm.normalize h) (ix3 b n ch)) = Cert.Spec.hn (fun b n ch => h (ix3 b n ch)) := by
  funext b n ch
  unfold Cert.Spec.hn RefTerm.relu RefTerm.normalize
  rw [maximumf_apply, broadcastInDim_scalar_apply, constant_apply, Ideal.ofBits_zero_f32, hostDivf_apply,
    broadcastInDim_apply _ _ _ (ix3 b n ch) (ix3 b n (0 : Fin 1)) (fun a => by fin_cases a <;> rfl),
    rownorm_apply]

theorem rows_apply (v : FVec Ideal S1024 .f32) (b : Fin 8) (n : Fin 512) (ch : Fin 1024) :
    RefTerm.rows v (ix3 b n ch) = v (ix1 ch) :=
  bcast_last (by decide) _ _ v b n ch

/-- The sum over the indices with last coordinate `ch` is a double sum over the first two coordinates. -/
theorem sum_filter_drop01 (x : S8x512x1024.Idx → EReal) (ch : Fin 1024) :
    ∑ i ∈ Finset.univ.filter (fun i => reducesTo_S8x512x1024_S1024_d0_1.drop i = ix1 ch), x i
      = ∑ b : Fin 8, ∑ n : Fin 512, x (ix3 b n ch) := by
  have key : ∀ i : S8x512x1024.Idx, reducesTo_S8x512x1024_S1024_d0_1.drop i = ix1 ch ↔ i 2 = ch := fun i =>
    have e := Shape.ReducesTo.drop_apply_val_of_eq reducesTo_S8x512x1024_S1024_d0_1 i 0 2
    ⟨fun h => Fin.ext (by rw [← e, h]), fun h => funext fun a => Fin.ext (by fin_cases a; exact e.trans (congrArg Fin.val h))⟩
  rw [← Fintype.sum_prod_type']
  refine Finset.sum_nbij' (fun i => ((i 0, i 1) : Fin 8 × Fin 512)) (fun p => ix3 p.1 p.2 ch)
    (fun _ _ => Finset.mem_univ _) (fun p _ => Finset.mem_filter.mpr ⟨Finset.mem_univ _, (key _).mpr rfl⟩)
    (fun i hi => ?_) (fun _ _ => rfl) (fun i hi => ?_)
  all_goals obtain rfl := (key i).mp (Finset.mem_filter.mp hi).2
  · exact (eq_ix3 i).symm
  · exact congrArg x (eq_ix3 i)

theorem cmean_apply (h : FVec Ideal S8x512x1024 .f32) (ch : Fin 1024) :
    RefTerm.cmean h (ix1 ch) = Ideal.div (∑ b : Fin 8, ∑ n : Fin 512, h (ix3 b n ch)) Cert.Spec.c4096 := by
  unfold RefTerm.cmean
  rw [hostDivf_apply, hostReduceAdd_apply, broadcastInDim_scalar_apply, constant_apply, constant_apply,
    Ideal.ofBits_zero_f32]
  unfold Ideal.hostReduceAdd
  rw [zero_add, sum_filter_drop01]

theorem centred_apply (h : FVec Ideal S8x512x1024 .f32) (b : Fin 8) (n : Fin 512) (ch : Fin 1024) :
    RefTerm.centred h (ix3 b n ch) = h (ix3 b n ch) - Cert.Spec.muR (fun b n ch => h (ix3 b n ch)) ch := by
  unfold RefTerm.centred Cert.Spec.muR
  rw [subf_apply, rows_apply, cmean_apply]

theorem cvar_apply (h : FVec Ideal S8x512x1024 .f32) (ch : Fin 1024) :
    RefTerm.cvar h (ix1 ch) = Cert.Spec.varR (fun b n ch => h (ix3 b n ch)) ch := by
  unfold RefTerm.cvar Cert.Spec.varR
  rw [cmean_apply]
  refine congrArg (fun s => Ideal.div s Cert.Spec.c4096) ?_
  refine Finset.sum_congr rfl fun b _ => Finset.sum_congr rfl fun n _ => ?_
  rw [mulf_apply, centred_apply]

theorem bnorm_apply (h : FVec Ideal S8x512x1024 .f32) (γ β : FVec Ideal S1024 .f32) (b : Fin 8) (n : Fin 512) (ch : Fin 1024) :
    RefTerm.bnorm h γ β (ix3 b n ch)
      = Cert.Spec.outR (fun b n ch => h (ix3 b n ch)) (fun c => γ (ix1 c)) (fun c => β (ix1 c)) b n ch := by
  unfold RefTerm.bnorm Cert.Spec.outR
  rw [addf_apply, mulf_apply, mulf_apply, rows_apply, rows_apply, rows_apply, centred_apply,
    show ∀ v : FVec Ideal S1024 .f32, Host.rsqrt v _ = Ideal.rsqrt (v _) from fun _ => rfl,
    addf_apply, cvar_apply, broadcastInDim_scalar_apply, constant_apply]

/-- Stage by stage, the term's value at (b, n, ch) is `Spec.R` of the arguments read by coordinates. -/
theorem res_apply (x : FVec Ideal S8x512x256 .f32) (i1 i2 i3 : IVec S16384 32)
    (Wx : FVec Ideal S256x256 .f32) (bx : FVec Ideal S256 .f32) (Wn : FVec Ideal S256x256 .f32) (bn : FVec Ideal S256 .f32)
    (γ β : FVec Ideal S1024 .f32)
    (h1 : Cert.Spec.InRange (fun j => i1 (ValueIdx.ix1 j))) (h2 : Cert.Spec.InRange (fun j => i2 (ValueIdx.ix1 j)))
    (h3 : Cert.Spec.InRange (fun j => i3 (ValueIdx.ix1 j))) (b : Fin 8) (n : Fin 512) (ch : Fin 1024) :
    RefTerm.res x i1 i2 i3 Wx bx Wn bn γ β (ValueIdx.ix3 b n ch)
      = Cert.Spec.R (fun b n f => x (ValueIdx.ix3 b n f)) (fun j => i1 (ValueIdx.ix1 j)) (fun j => i2 (ValueIdx.ix1 j))
          (fun j => i3 (ValueIdx.ix1 j)) (fun o f => Wx (ValueIdx.ix2 o f)) (fun o => bx (ValueIdx.ix1 o))
          (fun o f => Wn (ValueIdx.ix2 o f)) (fun o => bn (ValueIdx.ix1 o)) (fun c => γ (ValueIdx.ix1 c))
          (fun c => β (ValueIdx.ix1 c)) b n ch := by
  unfold RefTerm.res RefTerm.tail RefTerm.nbr Cert.Spec.R Cert.Spec.hR
  rw [bnorm_apply, hn_eq, cat4_eq, linear_eq, linear_eq, linear_eq, linear_eq, nmean_eq x i1 h1, nmean_eq x i2 h2,
    nmean_eq x i3 h3]

end Cert.ReferenceIdeal.RefValue

end
-- ==== Proof.PreFacts.lean ====
import proofs.«402726_j40862318854444_3_alg».proof.Pre_finite_inputs
import proofs.«402726_j40862318854444_3_alg».proof.Proof.Spec
import Idealize.ShloMosaic.Lib.ValueIdx
import Idealize.ShloMosaic.Lib.ReduceAll
import Idealize.ShloMosaic.Lib.StableHlo.Predicate

noncomputable section

namespace Cert.PreFacts

open Idealize.ShloMosaic Idealize.ShloMosaic.ValueIdx Cert.Pre_finite_inputs

instance : Subsingleton S_.Idx := ⟨fun a b => funext fun d => d.elim0⟩

theorem inf_word : Ideal.ofBits .f32 0x7F800000#32 = (⊤ : EReal) := by
  simp [Ideal.ofBits, Ideal.ieee]

theorem real_of_abs_lt (x : EReal)
    (h : Ideal.cmp .olt (max x (-x)) (Ideal.ofBits .f32 0x7F800000#32) = 1#1) : ∃ r : ℝ, x = (r : EReal) := by
  rw [inf_word] at h
  simp only [Ideal.cmp, StableHlo.Predicate.ofBool_eq_one_iff, decide_eq_true_eq] at h
  induction x using EReal.rec with
  | bot => simp at h
  | coe r => exact ⟨r, rfl⟩
  | top => simp at h

theorem range_of_cmp (w : BitVec 32) (h0 : IntOp.cmpi .sge w 0#32 = 1#1) (h1 : IntOp.cmpi .slt w 512#32 = 1#1) :
    0 ≤ w.toInt ∧ w.toInt < 512 := by
  rw [IntOp.cmpi_sge] at h0
  rw [IntOp.cmpi_slt] at h1
  rw [show (0#32 : BitVec 32).toInt = 0 from by decide] at h0
  rw [show (512#32 : BitVec 32).toInt = 512 from by decide] at h1
  exact ⟨h0, h1⟩

section
variable [Facts]
variable (a0 : FVec Ideal S8x512x256 .f32) (a1 a2 a3 : IVec S16384 32) (a4 : FVec Ideal S256x256 .f32)
  (a5 : FVec Ideal S256 .f32) (a6 : FVec Ideal S256x256 .f32) (a7 : FVec Ideal S256 .f32) (a8 a9 : FVec Ideal S1024 .f32)

theorem decode (h : fn (F := Ideal) a0 a1 a2 a3 a4 a5 a6 a7 a8 a9 = (fun _ => 1#1)) :
    (∀ i, ∃ r : ℝ, a0 i = (r : EReal)) ∧ (∀ i, ∃ r : ℝ, a4 i = (r : EReal)) ∧ (∀ i, ∃ r : ℝ, a5 i = (r : EReal)) ∧
    (∀ i, ∃ r : ℝ, a6 i = (r : EReal)) ∧ (∀ i, ∃ r : ℝ, a7 i = (r : EReal)) ∧ (∀ i, ∃ r : ℝ, a8 i = (r : EReal)) ∧
    (∀ i, ∃ r : ℝ, a9 i = (r : EReal)) ∧
    (∀ i, 0 ≤ (a1 i).toInt ∧ (a1 i).toInt < 512) ∧ (∀ i, 0 ≤ (a2 i).toInt ∧ (a2 i).toInt < 512) ∧
    (∀ i, 0 ≤ (a3 i).toInt ∧ (a3 i).toInt < 512) := by
  have e := congrFun h ix0
  dsimp only [fn, fn_part1, fn_part2, fn_part3, andi] at e
  simp only [IntOp.andi_eq_one] at e
  obtain ⟨⟨⟨⟨⟨⟨⟨⟨⟨⟨⟨⟨e0, e4⟩, e5⟩, e6⟩, e7⟩, e8⟩, e9⟩, l1⟩, u1⟩, l2⟩, u2⟩, l3⟩, u3⟩ := e
  refine ⟨fun i => ?_, fun i => ?_, fun i => ?_, fun i => ?_, fun i => ?_, fun i => ?_, fun i => ?_, fun i => ?_, fun i => ?_, fun i => ?_⟩
  · exact real_of_abs_lt (a0 i) (Host.reduce_andi_all _ _ _ _ ix0 e0 i)
  · exact real_of_abs_lt (a4 i) (Host.reduce_andi_all _ _ _ _ ix0 e4 i)
  · exact real_of_abs_lt (a5 i) (Host.reduce_andi_all _ _ _ _ ix0 e5 i)
  · exact real_of_abs_lt (a6 i) (Host.reduce_andi_all _ _ _ _ ix0 e6 i)
  · exact real_of_abs_lt (a7 i) (Host.reduce_andi_all _ _ _ _ ix0 e7 i)
  · exact real_of_abs_lt (a8 i) (Host.reduce_andi_all _ _ _ _ ix0 e8 i)
  · exact real_of_abs_lt (a9 i) (Host.reduce_andi_all _ _ _ _ ix0 e9 i)
  · exact range_of_cmp (a1 i) (Host.reduce_andi_all _ _ _ _ ix0 l1 i) (Host.reduce_andi_all _ _ _ _ ix0 u1 i)
  · exact range_of_cmp (a2 i) (Host.reduce_andi_all _ _ _ _ ix0 l2 i) (Host.reduce_andi_all _ _ _ _ ix0 u2 i)
  · exact range_of_cmp (a3 i) (Host.reduce_andi_all _ _ _ _ ix0 l3 i) (Host.reduce_andi_all _ _ _ _ ix0 u3 i)

variable {a0 a1 a2 a3 a4 a5 a6 a7 a8 a9}
variable (h : fn (F := Ideal) a0 a1 a2 a3 a4 a5 a6 a7 a8 a9 = (fun _ => 1#1))
include h

theorem fin_a0 : Cert.Spec.Fin3 (fun b n f => a0 (ix3 b n f)) := fun b n f => (decode a0 a1 a2 a3 a4 a5 a6 a7 a8 a9 h).1 _
theorem fin_a4 : Cert.Spec.Fin2 (fun o f => a4 (ix2 o f)) := fun o f => (decode a0 a1 a2 a3 a4 a5 a6 a7 a8 a9 h).2.1 _
theorem fin_a5 : Cert.Spec.Fin1 (fun o => a5 (ix1 o)) := fun o => (decode a0 a1 a2 a3 a4 a5 a6 a7 a8 a9 h).2.2.1 _
theorem fin_a6 : Cert.Spec.Fin2 (fun o f => a6 (ix2 o f)) := fun o f => (decode a0 a1 a2 a3 a4 a5 a6 a7 a8 a9 h).2.2.2.1 _
theorem fin_a7 : Cert.Spec.Fin1 (fun o => a7 (ix1 o)) := fun o => (decode a0 a1 a2 a3 a4 a5 a6 a7 a8 a9 h).2.2.2.2.1 _
theorem fin_a8 : Cert.Spec.Fin1 (fun o => a8 (ix1 o)) := fun o => (decode a0 a1 a2 a3 a4 a5 a6 a7 a8 a9 h).2.2.2.2.2.1 _
theorem fin_a9 : Cert.Spec.Fin1 (fun o => a9 (ix1 o)) := fun o => (decode a0 a1 a2 a3 a4 a5 a6 a7 a8 a9 h).2.2.2.2.2.2.1 _
theorem range_a1 : Cert.Spec.InRange (fun j => a1 (ix1 j)) := fun j => (decode a0 a1 a2 a3 a4 a5 a6 a7 a8 a9 h).2.2.2.2.2.2.2.1 _
theorem range_a2 : Cert.Spec.InRange (fun j => a2 (ix1 j)) := fun j => (decode a0 a1 a2 a3 a4 a5 a6 a7 a8 a9 h).2.2.2.2.2.2.2.2.1 _
theorem range_a3 : Cert.Spec.InRange (fun j => a3 (ix1 j)) := fun j => (decode a0 a1 a2 a3 a4 a5 a6 a7 a8 a9 h).2.2.2.2.2.2.2.2.2 _
end

end Cert.PreFacts

end
-- ==== Proof.MathMean.lean ====
import proofs.«402726_j40862318854444_3_alg».proof.Proof.Spec
import Mathlib.Algebra.BigOperators.Group.Finset.Basic
import Mathlib.Algebra.BigOperators.Ring.Finset
import Mathlib.Data.EReal.Inv
import Mathlib.Analysis.SpecialFunctions.Pow.Real
import Mathlib.Tactic.NormNum
import Mathlib.Tactic.Positivity

noncomputable section

namespace Cert.Spec

open Idealize.ShloMosaic

theorem c32_eq : c32 = ((32 : ℝ) : EReal) := by
  simp [c32, Ideal.ofBits, Ideal.ieee, -EReal.coe_mul]; norm_num

theorem cInv32_eq : cInv32 = ((1 / 32 : ℝ) : EReal) := by
  simp [cInv32, Ideal.ofBits, Ideal.ieee, -EReal.coe_mul]; norm_num

theorem eps12_pos : ∃ e : ℝ, 0 < e ∧ eps12 = (e : EReal) := by
  simp [eps12, Ideal.ofBits, Ideal.ieee, -EReal.coe_mul]

theorem coe_sum {ι : Type*} (s : Finset ι) (g : ι → ℝ) :
    ((∑ i ∈ s, g i : ℝ) : EReal) = ∑ i ∈ s, (g i : EReal) := by
  classical
  induction s using Finset.induction_on with
  | empty => simp
  | insert a s ha ih => rw [Finset.sum_insert ha, Finset.sum_insert ha, EReal.coe_add, ih]

def FinC (h : Chan) : Prop := ∀ b n ch, ∃ r : ℝ, h b n ch = (r : EReal)

theorem sum_listed_eq (idx : Nbrs) (n : Fin 512) (g : Fin 512 → ℝ) :
    ∑ k : Fin 32, g (nrow idx n k) = ∑ j : Fin 512, (cnt idx n j : ℝ) * g j := by
  rw [← Finset.sum_fiberwise' Finset.univ (nrow idx n) g]
  refine Finset.sum_congr rfl fun j _ => ?_
  rw [Finset.sum_const, nsmul_eq_mul, cnt]

theorem meanK_eq_meanR (x : Feat) (idx : Nbrs) (hx : Fin3 x) : meanK x idx = meanR x idx := by
  choose xr hxr using hx
  funext b n f
  have h32 : (32 : ℝ) ≠ 0 := by norm_num
  simp only [meanK, meanR, c32_eq, cInv32_eq, hxr, Ideal.div_coe h32]
  rw [← coe_sum, ← EReal.coe_mul, sum_listed_eq idx n (fun j => xr b j f), Finset.sum_mul]
  simp only [← EReal.coe_mul]
  rw [← coe_sum]
  congr 1
  refine Finset.sum_congr rfl fun j _ => ?_
  ring

theorem lin_real {z : Feat} {W : Fin 256 → Fin 256 → EReal} {bias : Fin 256 → EReal}
    (hz : Fin3 z) (hW : Fin2 W) (hb : Fin1 bias) : Fin3 (lin z W bias) := by
  choose zr hzr using hz
  choose Wr hWr using hW
  choose br hbr using hb
  intro b n o
  refine ⟨(∑ f : Fin 256, zr b n f * Wr o f) + br o, ?_⟩
  simp only [lin, hzr, hWr, hbr, EReal.coe_add, coe_sum, EReal.coe_mul]

theorem meanR_real {x : Feat} {idx : Nbrs} (hx : Fin3 x) : Fin3 (meanR x idx) := by
  choose xr hxr using hx
  intro b n f
  have h32 : (32 : ℝ) ≠ 0 := by norm_num
  refine ⟨(∑ k : Fin 32, xr b (nrow idx n k) f) * (1 / 32), ?_⟩
  simp only [meanR, c32_eq, hxr, Ideal.div_coe h32, EReal.coe_mul, coe_sum]

theorem hcat_real {h0 h1 h2 h3 : Feat} (H0 : Fin3 h0) (H1 : Fin3 h1) (H2 : Fin3 h2) (H3 : Fin3 h3) :
    FinC (hcat h0 h1 h2 h3) := by
  intro b n ch
  unfold hcat
  split_ifs
  · exact H0 _ _ _
  · exact H1 _ _ _
  · exact H2 _ _ _
  · exact H3 _ _ _

theorem hn_real {h : Chan} (hh : FinC h) : FinC (hn h) := by
  choose hr hhr using hh
  obtain ⟨e, he, hee⟩ := eps12_pos
  intro b n ch
  set s : ℝ := ∑ ch' : Fin 1024, hr b n ch' * hr b n ch' with hs
  have hs0 : ¬ s < 0 := not_lt.mpr (Finset.sum_nonneg fun i _ => mul_self_nonneg _)
  have hm : max (Real.sqrt s) e ≠ 0 := ne_of_gt (lt_of_lt_of_le he (le_max_right _ _))
  have hsum : (∑ ch' : Fin 1024, h b n ch' * h b n ch') = (s : EReal) := by
    simp only [hhr, ← EReal.coe_mul, ← coe_sum, hs]
  have hmax : max (Ideal.sqrt (s : EReal)) eps12 = ((max (Real.sqrt s) e : ℝ) : EReal) := by
    rw [Ideal.sqrt_coe, if_neg hs0, hee, EReal.coe_strictMono.monotone.map_max]
  refine ⟨max (hr b n ch * (1 / max (Real.sqrt s) e)) 0, ?_⟩
  simp only [hn]
  rw [hsum, hmax, Ideal.div_coe hm, hhr, ← EReal.coe_mul, ← EReal.coe_zero,
    EReal.coe_strictMono.monotone.map_max]

end Cert.Spec

end
-- ==== Proof.MathNorm.lean ====
import proofs.«402726_j40862318854444_3_alg».proof.Proof.MathMean
import Mathlib.Algebra.BigOperators.Fin
import Mathlib.Tactic.Choose
import Mathlib.Tactic.NormNum
import Mathlib.Tactic.Positivity
import Mathlib.Tactic.Ring

noncomputable section

namespace Cert.Spec

open Idealize.ShloMosaic

namespace Norm

theorem c4096_eq : c4096 = ((4096 : ℝ) : EReal) := by
  simp [Ideal.ofBits, Ideal.ieee, -EReal.coe_mul]; norm_num

theorem eps5_eq : eps5 = ((10995116 * (2 : ℝ) ^ (-40 : ℤ) : ℝ) : EReal) := by
  simp [Ideal.ofBits, Ideal.ieee, -EReal.coe_mul]

def e5 : ℝ := 10995116 * (2 : ℝ) ^ (-40 : ℤ)

theorem e5_pos : 0 < e5 := by unfold e5; positivity

theorem eps5_coe : eps5 = (e5 : EReal) := eps5_eq

theorem sum_half {M : Type*} [AddCommMonoid M] (g : Fin 512 → M) :
    ∑ c : Fin 2, ∑ r : Fin 256, g (half c r) = ∑ n : Fin 512, g n := by
  have h0 : ∀ r : Fin 256, half 0 r = Fin.castAdd 256 r := fun r => Fin.ext (by simp [half])
  have h1 : ∀ r : Fin 256, half 1 r = Fin.natAdd 256 r := fun r => Fin.ext (by simp [half, Nat.add_comm])
  rw [Fin.sum_univ_two, Fin.sum_univ_add (a := 256) (b := 256) g]
  simp only [h0, h1]

theorem sum_parts {M : Type*} [AddCommMonoid M] (g : Fin 8 → Fin 512 → M) :
    ∑ c : Fin 2, ∑ b : Fin 8, ∑ r : Fin 256, g b (half c r) = ∑ b : Fin 8, ∑ n : Fin 512, g b n := by
  rw [Finset.sum_comm]
  exact Finset.sum_congr rfl fun b _ => sum_half (g b)

section Column
variable (a : Fin 8 → Fin 512 → ℝ)

def mu : ℝ := (∑ b, ∑ n, a b n) * (1 / 4096)

def var : ℝ := (∑ b, ∑ n, (a b n - mu a) * (a b n - mu a)) * (1 / 4096)

theorem var_nonneg : 0 ≤ var a :=
  mul_nonneg (Finset.sum_nonneg fun b _ => Finset.sum_nonneg fun n _ => mul_self_nonneg _) (by norm_num)

theorem var_eq : var a = (∑ b, ∑ n, a b n * a b n) * (1 / 4096) - mu a * mu a := by
  have hS : ∑ b, ∑ n, a b n = 4096 * mu a := by unfold mu; ring
  have e : ∀ b n, (a b n - mu a) * (a b n - mu a) = a b n * a b n - 2 * mu a * a b n + mu a * mu a := by
    intro b n; ring
  unfold var
  simp only [e, Finset.sum_add_distrib, Finset.sum_sub_distrib, ← Finset.mul_sum, Finset.sum_const, Finset.card_univ,
    Fintype.card_fin, nsmul_eq_mul, hS]
  push_cast; ring

end Column

theorem div4096 (x : ℝ) : Ideal.div (x : EReal) c4096 = ((x * (1 / 4096) : ℝ) : EReal) := by
  rw [c4096_eq, Ideal.div_coe (by norm_num : (4096 : ℝ) ≠ 0), ← EReal.coe_mul]

theorem sum_coe2 (a : Fin 8 → Fin 512 → ℝ) :
    (∑ b, ∑ n, (a b n : EReal)) = ((∑ b, ∑ n, a b n : ℝ) : EReal) := by
  rw [coe_sum]; exact Finset.sum_congr rfl fun b _ => (coe_sum _ _).symm

theorem rsqrt_pos {x : ℝ} (hx : 0 < x) : Ideal.rsqrt (x : EReal) = (((Real.sqrt x)⁻¹ : ℝ) : EReal) := by
  rw [Ideal.rsqrt_coe, if_neg (not_lt.mpr hx.le), if_neg hx.ne']

section Lift
variable {h : Chan} {ch : Fin 1024} {a : Fin 8 → Fin 512 → ℝ} (ha : ∀ b n, h b n ch = (a b n : EReal))
include ha

theorem muR_coe : muR h ch = (mu a : EReal) := by
  unfold muR mu
  simp only [ha]
  rw [sum_coe2, div4096]

theorem muK_coe : muK h ch = (mu a : EReal) := by
  unfold muK partS mu
  rw [show (∑ c : Fin 2, ∑ b : Fin 8, ∑ r : Fin 256, h b (half c r) ch) = ∑ b : Fin 8, ∑ n : Fin 512, h b n ch from
    sum_parts (fun b n => h b n ch)]
  simp only [ha]
  rw [sum_coe2, div4096]

theorem varR_coe : varR h ch = (var a : EReal) := by
  unfold varR var
  rw [muR_coe ha]
  simp only [ha, ← EReal.coe_sub, ← EReal.coe_mul]
  rw [sum_coe2, div4096]

theorem varK_coe : varK h ch = (var a : EReal) := by
  unfold varK partQ
  rw [muK_coe ha, show (∑ c : Fin 2, ∑ b : Fin 8, ∑ r : Fin 256, h b (half c r) ch * h b (half c r) ch)
      = ∑ b : Fin 8, ∑ n : Fin 512, h b n ch * h b n ch from sum_parts (fun b n => h b n ch * h b n ch)]
  simp only [ha, ← EReal.coe_mul]
  rw [sum_coe2, div4096, ← EReal.coe_sub, ← var_eq a]
  exact max_eq_left (EReal.coe_nonneg.mpr (var_nonneg a))

end Lift

end Norm

theorem outK_eq_outR (h : Chan) (γ β : Fin 1024 → EReal) (hh : ∀ b n ch, ∃ r : ℝ, h b n ch = (r : EReal))
    (hγ : Fin1 γ) (hβ : Fin1 β) : outK h γ β = outR h γ β := by
  unfold Fin1 at hγ hβ
  choose a ha using hh
  choose g hg using hγ
  choose t ht using hβ
  funext b n ch
  have hA : ∀ b n, h b n ch = ((a b n ch : ℝ) : EReal) := fun b n => ha b n ch
  have hv : 0 < Norm.var (fun b n => a b n ch) + Norm.e5 :=
    add_pos_of_nonneg_of_pos (Norm.var_nonneg _) Norm.e5_pos
  unfold outK outR shiftK scaleK
  rw [Norm.muK_coe hA, Norm.muR_coe hA, Norm.varK_coe hA, Norm.varR_coe hA, Norm.eps5_coe,
    ← EReal.coe_add, Norm.rsqrt_pos hv, ha, hg, ht]
  norm_cast
  ring

end Cert.Spec

end
-- ==== Proof.MathMain.lean ====
import proofs.«402726_j40862318854444_3_alg».proof.Proof.MathNorm

noncomputable section

namespace Cert.Spec

open Idealize.ShloMosaic

theorem K_eq_R (x : Feat) (i1 i2 i3 : Nbrs) (Wx : Fin 256 → Fin 256 → EReal) (bx : Fin 256 → EReal)
    (Wn : Fin 256 → Fin 256 → EReal) (bn : Fin 256 → EReal) (γ β : Fin 1024 → EReal)
    (hx : Fin3 x) (hWx : Fin2 Wx) (hbx : Fin1 bx) (hWn : Fin2 Wn) (hbn : Fin1 bn) (hγ : Fin1 γ) (hβ : Fin1 β) :
    K x i1 i2 i3 Wx bx Wn bn γ β = R x i1 i2 i3 Wx bx Wn bn γ β := by
  have hKR : hK x i1 i2 i3 Wx bx Wn bn = hR x i1 i2 i3 Wx bx Wn bn := by
    simp only [hK, hR, meanK_eq_meanR x _ hx]
  have hreal : FinC (hR x i1 i2 i3 Wx bx Wn bn) :=
    hn_real (hcat_real (lin_real hx hWx hbx) (lin_real (meanR_real hx) hWn hbn)
      (lin_real (meanR_real hx) hWn hbn) (lin_real (meanR_real hx) hWn hbn))
  rw [K, R, hKR]
  exact outK_eq_outR _ γ β hreal hγ hβ

end Cert.Spec

end
-- ==== Proof.Bridge.lean ====
import proofs.«402726_j40862318854444_3_alg».proof.Defs
import proofs.«402726_j40862318854444_3_alg».proof.Proof.Gen.KernelIdeal
import proofs.«402726_j40862318854444_3_alg».proof.Proof.Gen.ReferenceIdeal
import proofs.«402726_j40862318854444_3_alg».proof.Proof.Gen.Pre_finite_inputs
import proofs.«402726_j40862318854444_3_alg».proof.Proof.KArgs
import proofs.«402726_j40862318854444_3_alg».proof.Proof.KValue
import proofs.«402726_j40862318854444_3_alg».proof.Proof.RefRun
import proofs.«402726_j40862318854444_3_alg».proof.Proof.RefValue
import proofs.«402726_j40862318854444_3_alg».proof.Proof.PreFacts
import proofs.«402726_j40862318854444_3_alg».proof.Proof.MathMain

noncomputable section

namespace Cert.Proof.Bridge

open Idealize.ShloMosaic Idealize.ShloMosaic.TcCoe Idealize.ShloMosaic.ValueIdx Idealize.SL.Sem

theorem frame_ri : Cert.frame_ReferenceIdeal := fun m ρ _ =>
  (θ_run Cert.ReferenceIdeal.defs _ _).mono (fun _ h c => (h c).2) (Cert.ReferenceIdeal.RefRun.run m ρ)

theorem algebraic : Cert.algebraic_KernelIdeal_ReferenceIdeal := by
  intro m ρ m' ρ' hpre hagree
  refine ⟨fun c => Cert.KernelIdeal.Fr.W10 (F := Ideal) m c Cert.KernelIdeal.main_v69,
    Cert.KernelIdeal.Fr.run_value (F := Ideal) m ρ, ?_⟩
  refine (θ_run Cert.ReferenceIdeal.defs _ _).mono (fun r h c => ⟨(h c).1.trans ?_, (h c).2⟩)
    (Cert.ReferenceIdeal.RefRun.run m' ρ')
  obtain ⟨e0, e1, e2, e3, e4, e5, e6, e7, e8, e9⟩ := hagree c
  rw [e0, e1, e2, e3, e4, e5, e6, e7, e8, e9]
  funext j
  obtain ⟨b, n, ch, rfl⟩ : ∃ (b : Fin 8) (n : Fin 512) (ch : Fin 1024), j = ix3 b n ch := ⟨j 0, j 1, j 2, eq_ix3 j⟩
  have h1 := Cert.PreFacts.range_a1 (hpre c)
  have h2 := Cert.PreFacts.range_a2 (hpre c)
  have h3 := Cert.PreFacts.range_a3 (hpre c)
  rw [Cert.ReferenceIdeal.RefValue.res_apply _ _ _ _ _ _ _ _ _ _ h1 h2 h3 b n ch,
    ← Cert.Spec.K_eq_R _ _ _ _ _ _ _ _ _ _ (Cert.PreFacts.fin_a0 (hpre c)) (Cert.PreFacts.fin_a4 (hpre c)) (Cert.PreFacts.fin_a5 (hpre c))
      (Cert.PreFacts.fin_a6 (hpre c)) (Cert.PreFacts.fin_a7 (hpre c)) (Cert.PreFacts.fin_a8 (hpre c)) (Cert.PreFacts.fin_a9 (hpre c))]
  exact (Cert.KernelIdeal.Val.kernel_value m c h1 h2 h3 b n ch).symm

end Cert.Proof.Bridge

end
-- ==== Proof.lean ====
import proofs.«402726_j40862318854444_3_alg».proof.Defs
import proofs.«402726_j40862318854444_3_alg».proof.Proof.Gen.Kernel
import proofs.«402726_j40862318854444_3_alg».proof.Proof.Gen.KernelIdeal
import proofs.«402726_j40862318854444_3_alg».proof.Proof.Gen.ReferenceIdeal
import proofs.«402726_j40862318854444_3_alg».proof.Proof.Gen.Pre_finite_inputs
import proofs.«402726_j40862318854444_3_alg».proof.Proof.KArgs
import proofs.«402726_j40862318854444_3_alg».proof.Proof.Bridge
import Idealize.ShloMosaic.Adequacy
import Idealize.ShloMosaic.Init

noncomputable section

namespace Cert.Proof

open Idealize.ShloMosaic Idealize.SL.Sem

-- The idealized program's frame holds at any float values, and the word-level program is the same term under another name.
theorem frame_k : Cert.frame_Kernel := by
  intro m ρ h; clear h; revert m ρ
  exact cast (by chain_rfl) (Cert.KernelIdeal.Fr.frame (F := Bits))

theorem claim : Cert.Claim := ⟨Cert.Kernel.Gen.facts, Cert.KernelIdeal.Gen.facts, Cert.ReferenceIdeal.Gen.facts, Cert.Pre_finite_inputs.Gen.facts,
  frame_k, fun m ρ _ => Cert.KernelIdeal.Fr.frame (F := Ideal) m ρ, Bridge.frame_ri, trivial, Bridge.algebraic⟩

end Cert.Proof

end
